-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128x128 .f32) (main_arg11 : FVec F S64x128 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128 .f32) (main_arg8 : FVec F S128x128 .f32) (main_arg9 : FVec F S128 .f32) (main_arg10 : FVec F S128x128 .f32) (main_arg11 : FVec F S64x128 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128 .f32) (main_arg8 : FVec F S128x128 .f32) (main_arg9 : FVec F S128 .f32) (main_arg10 : FVec F S128x128 .f32) (main_arg11 : FVec F S64x128 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S2x128 : Shape := ⟨2, ![2, 128]⟩
abbrev S128x64 : Shape := ⟨2, ![128, 64]⟩
abbrev S64x64 : Shape := ⟨2, ![64, 64]⟩
abbrev S5000x64 : Shape := ⟨2, ![5000, 64]⟩
abbrev S64x1 : Shape := ⟨2, ![64, 1]⟩
abbrev S1x64 : Shape := ⟨2, ![1, 64]⟩

abbrev nBuf : Space → Nat
  | .hbm => 85
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S64x128, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S100000x1, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S128x128, .f32⟩
  | .hbm, ⟨45, _⟩ => ⟨S128x128, .f32⟩
  | .hbm, ⟨46, _⟩ => ⟨S100000x128, .f32⟩
  | .hbm, ⟨47, _⟩ => ⟨S2x128, .f32⟩
  | .hbm, ⟨48, _⟩ => ⟨S1x128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S128x128, .f32⟩
  | .hbm, ⟨82, _⟩ => ⟨S128x128, .f32⟩
  | .hbm, ⟨83, _⟩ => ⟨S128x64, .f32⟩
  | .hbm, ⟨84, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S2x128, .f32⟩
  | .local _ .vmem, ⟨14, _⟩ => ⟨S5000x128, .f32⟩
  | .local _ .vmem, ⟨15, _⟩ => ⟨S5000x128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S5000x128, .f32⟩
  | .local _ .vmem, ⟨25, _⟩ => ⟨S5000x128, .f32⟩
  | .local _ .vmem, ⟨26, _⟩ => ⟨S5000x1, .i32⟩
  | .local _ .vmem, ⟨27, _⟩ => ⟨S5000x1, .i32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128x64, .f32⟩
  | .local _ .vmem, ⟨32, _⟩ => ⟨S64, .f32⟩
  | .local _ .vmem, ⟨33, _⟩ => ⟨S64x64, .f32⟩
  | .local _ .vmem, ⟨34, _⟩ => ⟨S64x128, .f32⟩
  | .local _ .vmem, ⟨35, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_scratch0 : Ref sig .tc := ⟨.vmem, 34, rfl⟩
abbrev cc3_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v44 : BitVec 1 := Scalar.cmpi .eq arg0 c19_i32
  let v45 : BitVec 32 := Scalar.extui v44
  let c0_i32_24 : BitVec 32 := 0#32
  let v46 : BitVec 1 := Scalar.cmpi .ne v45 c0_i32_24
  v46

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S2x128_S2x128_0_0 : ∀ a, (![0, 0] : Fin 2 → Nat) a + S2x128.size a ≤ S2x128.size a
  h_S2x128 : 0 < S2x128.numel
  inb_S2x128_S1x128_0_0 : ∀ a, (![0, 0] : Fin 2 → Nat) a + S1x128.size a ≤ S2x128.size a
  h_S1x128 : 0 < S1x128.numel
  shapeCasts_S1x128_S128 : S1x128.ShapeCasts S128
  reduces_S5000x128_S128 : S5000x128.Reduces [0] S128
  inb_S2x128_S1x128_1_0 : ∀ a, (![1, 0] : Fin 2 → Nat) a + S1x128.size a ≤ S2x128.size a
  slices_S2x128_S1x128_0_0 : S2x128.Slices ![0, 0] S1x128
  bcast_S_S128 : S_.BroadcastsInDim S128 (![] : Fin 0 → Fin S128.rank)
  slices_S2x128_S1x128_1_0 : S2x128.Slices ![1, 0] S1x128
  shapeCasts_S128_S128 : S128.ShapeCasts S128
  transposes_S64x128_S128x64_1_0 : S64x128.Transposes [1, 0] S128x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  broadcasts_S5000x1_S5000x64 : S5000x1.Broadcasts S5000x64
  natLt_1_32 : 1 < 32
  reduces_S5000x64_S64 : S5000x64.Reduces [0] S64
  shapeCasts_S64_S64x1 : S64.ShapeCasts S64x1
  shapeCasts_S64x1_S64x1 : S64x1.ShapeCasts S64x1
  broadcasts_S64x1_S64x128 : S64x1.Broadcasts S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x64_S5000x128_S64x128_0_0_1_1_n_n_wf : DotDims.WF S5000x64 S5000x128 S64x128 [0] [0] [1] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .i32 = 32 ∨ (Rect.block (s := S100000x1) S5000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x64.size a ≤ S128x64.size a
  hwx3_7 : ∀ i : grid3.Coords, EltTy.bits .f32 = 32 ∨ (Rect.block (s := S128x64) S128x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x64.size a ≤ S64x64.size a
  hwx3_9 : ∀ i : grid3.Coords, EltTy.bits .f32 = 32 ∨ (Rect.block (s := S64x64) S64x64.size (cc3_transform_9 i) (hinb3_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg9) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v57) S128x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg12) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v58) S64x64.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x1 : Shape := ⟨2, ![64, 1]⟩
abbrev S128x64 : Shape := ⟨2, ![128, 64]⟩
abbrev S64x64 : Shape := ⟨2, ![64, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128, .f32⟩
  | 8 => ⟨S128x128, .f32⟩
  | 9 => ⟨S128, .f32⟩
  | 10 => ⟨S128x128, .f32⟩
  | 11 => ⟨S64x128, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x128, .f32⟩
  | 43 => ⟨S100000x128, .f32⟩
  | 44 => ⟨S1x128, .f32⟩
  | 45 => ⟨S100000x128, .f32⟩
  | 46 => ⟨S100000x128, .f32⟩
  | 47 => ⟨S128x128, .f32⟩
  | 48 => ⟨S100000x128, .f32⟩
  | 49 => ⟨S100000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S128x128, .f32⟩
  | 123 => ⟨S100000x128, .f32⟩
  | 124 => ⟨S1x128, .f32⟩
  | 125 => ⟨S100000x128, .f32⟩
  | 126 => ⟨S100000x128, .f32⟩
  | 127 => ⟨S128x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S64x128, .f32⟩
  | 4 => ⟨S100000x1, .i32⟩
  | 5 => ⟨S64x128, .f32⟩
  | 6 => ⟨S_, .f32⟩
  | 7 => ⟨S100000, .f32⟩
  | 8 => ⟨S_, .f32⟩
  | 9 => ⟨S64, .f32⟩
  | 10 => ⟨S100000x1, .i32⟩
  | 11 => ⟨S64, .f32⟩
  | 12 => ⟨S_, .f32⟩
  | 13 => ⟨S64, .f32⟩
  | 14 => ⟨S64, .f32⟩
  | 15 => ⟨S64x1, .f32⟩
  | 16 => ⟨S64x128, .f32⟩
  | 17 => ⟨S64x128, .f32⟩
  | 18 => ⟨S128x64, .f32⟩
  | 19 => ⟨S64x64, .f32⟩
  | 20 => ⟨S1x64, .f32⟩
  | 21 => ⟨S64x64, .f32⟩
  | 22 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_7 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_call1_cst : Ref sig .tc := ⟨.hbm, 94, rfl⟩
abbrev main_call1_v0 : Ref sig .tc := ⟨.hbm, 95, rfl⟩
abbrev main_v50 : Ref sig .tc := ⟨.hbm, 96, rfl⟩
abbrev main_c_8 : Ref sig .tc := ⟨.hbm, 97, rfl⟩
abbrev main_v51 : Ref sig .tc := ⟨.hbm, 98, rfl⟩
abbrev main_v52 : Ref sig .tc := ⟨.hbm, 99, rfl⟩
abbrev main_c_9 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_10 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_11 : Ref sig .tc := ⟨.hbm, 110, rfl⟩
abbrev main_v61 : Ref sig .tc := ⟨.hbm, 111, rfl⟩
abbrev main_cst_12 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_13 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_14 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_15 : Ref sig .tc := ⟨.hbm, 134, rfl⟩
abbrev main_v81 : Ref sig .tc := ⟨.hbm, 135, rfl⟩
abbrev main_cst_16 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_17 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.FrameRun.lean ====
import proofs.«415688_j20925080666769_1_alg».proof.Proof.Gen.KernelIdeal.Regions
import proofs.«415688_j20925080666769_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev VT (F : FTy → Type) : Type := (c : Dev nD) → (b : Ref sig .tc) → Buf (Elt F) ((c : Thread nD τ).loc b)

structure Half (F : FTy → Type) [FloatOps F] (p : Fin 4) where
  dat : VT F → (c : Dev nD) → Dat τ (Elt F) Unit ℕ (UR sig nD τ) ℕ (cfgs p) c
  hA : ∀ V c w, (dat V c).A w = V c (Pipeline.arrRef (cfgs p).spec w)
  hq : ∀ V c w, (dat V c).q w = fullShare
  howed : ∀ V c t, (dat V c).owed t = 0
  hrec : ∀ V c t, (dat V c).recorded t = Set.univ
  hΦ0 : ∀ V c, (dat V c).Φ 0 = Pipeline.ΦA (cfgs p).spec c
  hΦN : ∀ V c, (dat V c).Φ (Fin.last (cfgs p).N) ⊢ Pipeline.ΦA (cfgs p).spec c
  hbody : ∀ V c, BodyObligation (dat V c) (defs₀ (F := F)) Variants.none () Set.univ

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

def mkReg (pdats : (p : Fin 4) → (c : Dev nD) → Dat τ (Elt F) Unit ℕ (UR sig nD τ) ℕ (cfgs p) c)
    (p : Fin 4) (lf : Pipeline.LaunchFacts (nD := nD) (τ := τ) cfgs p)
    (hq : ∀ c w, (pdats p c).q w = fullShare) (howed : ∀ c t, (pdats p c).owed t = 0)
    (hrec : ∀ c t, (pdats p c).recorded t = Set.univ)
    (hΦ0 : ∀ c, (pdats p c).Φ 0 = Pipeline.ΦA (cfgs p).spec c)
    (hΦN : ∀ c, (pdats p c).Φ (Fin.last (cfgs p).N) ⊢ Pipeline.ΦA (cfgs p).spec c)
    (hbody : ∀ c, BodyObligation (pdats p c) (defs₀ (F := F)) Variants.none () Set.univ)
    (Vin Vout : Dev nD → Valuation τ sig (Elt F))
    (hA : ∀ c w, (pdats p c).A w = Vin c (Pipeline.arrRef (cfgs p).spec w))
    (hF : ∀ c w, (pdats p c).arrAt w (cfgs p).N = Vout c (Pipeline.arrRef (cfgs p).spec w))
    (hrest : ∀ c, ∀ b : Ref sig .tc, b ∉ Finset.univ.image (Pipeline.arrRef (cfgs p).spec) → Vout c b = Vin c b) :
    Pipeline.RegionSeg (pcfgs (F := F)) adm pdats () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

section Run

variable (H0 : Half F 0) (H1 : Half F 1) (H2 : Half F 2) (H3 : Half F 3)
variable (m : (ℓ : Loc nD τ sig) → Buf (Elt F) ℓ)

abbrev X1 (c : Dev nD) : Valuation τ sig (Elt F) := Gen.V1 m c

def o2 (c : Dev nD) : Buf (Elt F) ((c : Thread nD τ).loc main_v26) := (H0.dat (fun c b => X1 m c b) c).arrAt 6 cfg0.N

abbrev X2 (c : Dev nD) : Valuation τ sig (Elt F) := Function.update (X1 m c) main_v26 (o2 H0 m c)

def o3 (c : Dev nD) : Buf (Elt F) ((c : Thread nD τ).loc main_v27) := (H1.dat (fun c b => X2 H0 m c b) c).arrAt 1 cfg1.N
abbrev X3 (c : Dev nD) : Valuation τ sig (Elt F) := Function.update (X2 H0 m c) main_v27 (o3 H0 H1 m c)

abbrev X4 (c : Dev nD) : Valuation τ sig (Elt F) := StableHlo.after hostOps2 (X3 H0 H1 m c)
def o5 (c : Dev nD) : Buf (Elt F) ((c : Thread nD τ).loc main_v44) := (H2.dat (fun c b => X4 H0 H1 m c b) c).arrAt 3 cfg2.N
abbrev X5 (c : Dev nD) : Valuation τ sig (Elt F) := Function.update (X4 H0 H1 m c) main_v44 (o5 H0 H1 H2 m c)

abbrev X6 (c : Dev nD) : Valuation τ sig (Elt F) := StableHlo.after hostOps3 (X5 H0 H1 H2 m c)

def o7 (c : Dev nD) : Buf (Elt F) ((c : Thread nD τ).loc main_v58) := (H3.dat (fun c b => X6 H0 H1 H2 m c b) c).arrAt 9 cfg3.N
abbrev X7 (c : Dev nD) : Valuation τ sig (Elt F) := Function.update (X6 H0 H1 H2 m c) main_v58 (o7 H0 H1 H2 H3 m c)

def outs : Gen.Outs (F := F) := fun _ r c =>
  if h26 : r = main_v26 then h26 ▸ o2 H0 m c
  else if h27 : r = main_v27 then h27 ▸ o3 H0 H1 m c
  else if h44 : r = main_v44 then h44 ▸ o5 H0 H1 H2 m c
  else if h58 : r = main_v58 then h58 ▸ o7 H0 H1 H2 H3 m c
  else m ((c : Thread nD τ).loc r)

theorem outs_v26 (J : ℕ) (c : Dev nD) : outs H0 H1 H2 H3 m J main_v26 c = o2 H0 m c := by
  unfold outs; rw [dif_pos rfl]
theorem outs_v27 (J : ℕ) (c : Dev nD) : outs H0 H1 H2 H3 m J main_v27 c = o3 H0 H1 m c := by
  unfold outs; rw [dif_neg (by decide), dif_pos rfl]
theorem outs_v44 (J : ℕ) (c : Dev nD) : outs H0 H1 H2 H3 m J main_v44 c = o5 H0 H1 H2 m c := by
  unfold outs; rw [dif_neg (by decide), dif_neg (by decide), dif_pos rfl]
theorem outs_v58 (J : ℕ) (c : Dev nD) : outs H0 H1 H2 H3 m J main_v58 c = o7 H0 H1 H2 H3 m c := by
  unfold outs; rw [dif_neg (by decide), dif_neg (by decide), dif_neg (by decide), dif_pos rfl]

theorem V2_eq (c : Dev nD) : Gen.V2 m (outs H0 H1 H2 H3 m) c = X2 H0 m c := by
  show Function.update (Gen.V1 m c) main_v26 _ = _; rw [outs_v26]
theorem V3_eq (c : Dev nD) : Gen.V3 m (outs H0 H1 H2 H3 m) c = X3 H0 H1 m c := by
  show Function.update (Gen.V2 m (outs H0 H1 H2 H3 m) c) main_v27 _ = _; rw [outs_v27, V2_eq]
theorem V4_eq (c : Dev nD) : Gen.V4 m (outs H0 H1 H2 H3 m) c = X4 H0 H1 m c := by
  show StableHlo.after hostOps2 (Gen.V3 m (outs H0 H1 H2 H3 m) c) = _; rw [V3_eq]
theorem V5_eq (c : Dev nD) : Gen.V5 m (outs H0 H1 H2 H3 m) c = X5 H0 H1 H2 m c := by
  show Function.update (Gen.V4 m (outs H0 H1 H2 H3 m) c) main_v44 _ = _; rw [outs_v44, V4_eq]
theorem V6_eq (c : Dev nD) : Gen.V6 m (outs H0 H1 H2 H3 m) c = X6 H0 H1 H2 m c := by
  show StableHlo.after hostOps3 (Gen.V5 m (outs H0 H1 H2 H3 m) c) = _; rw [V5_eq]
theorem V7_eq (c : Dev nD) : Gen.V7 m (outs H0 H1 H2 H3 m) c = X7 H0 H1 H2 H3 m c := by
  show Function.update (Gen.V6 m (outs H0 H1 H2 H3 m) c) main_v58 _ = _; rw [outs_v58, V6_eq]

def pdats : (p : Fin 4) → (c : Dev nD) → Dat τ (Elt F) Unit ℕ (UR sig nD τ) ℕ (cfgs p) c
  | ⟨0, _⟩ => fun c => H0.dat (fun c b => X1 m c b) c
  | ⟨1, _⟩ => fun c => H1.dat (fun c b => X2 H0 m c b) c
  | ⟨2, _⟩ => fun c => H2.dat (fun c b => X4 H0 H1 m c b) c
  | ⟨3, _⟩ => fun c => H3.dat (fun c b => X6 H0 H1 H2 m c b) c

theorem exit_arr {p : Fin 4} (H : Half F p) (Vin : Dev nD → Valuation τ sig (Elt F)) (c : Dev nD) (wo : Fin (cfgs p).W)
    (hout : ∀ w, w ≠ wo → ((cfgs p).win w).isOut = false ∧ Pipeline.arrRef (cfgs p).spec w ≠ Pipeline.arrRef (cfgs p).spec wo)
    (w : Fin (cfgs p).W) :
    (H.dat (fun c b => Vin c b) c).arrAt w (cfgs p).N
      = Function.update (Vin c) (Pipeline.arrRef (cfgs p).spec wo : DevRef τ sig)
          ((H.dat (fun c b => Vin c b) c).arrAt wo (cfgs p).N) (Pipeline.arrRef (cfgs p).spec w) := by
  by_cases hw : w = wo
  · subst hw; rw [Function.update_self]
  · exact ((H.dat _ c).arrAt_in w (hout w hw).1 _).trans ((H.hA _ c w).trans
      (Function.update_of_ne (StableHlo.devRef_ne_of_ne (hout w hw).2) _ _).symm)

theorem exit_rest {p : Fin 4} (V : Valuation τ sig (Elt F)) (wo : Fin (cfgs p).W) (o) (b : Ref sig .tc)
    (hb : b ∉ Finset.univ.image (Pipeline.arrRef (cfgs p).spec)) :
    Function.update V (Pipeline.arrRef (cfgs p).spec wo : DevRef τ sig) o b = V b :=
  Function.update_of_ne (StableHlo.devRef_ne_of_ne fun e => hb (by subst e; exact Finset.mem_image.mpr ⟨wo, Finset.mem_univ _, rfl⟩)) _ _

def reg0 : Pipeline.RegionSeg (pcfgs (F := F)) adm (pdats H0 H1 H2 H3 m) () defs₀ 𝒱₀ L lv 0 :=
  mkReg (pdats H0 H1 H2 H3 m) 0 launch0 (fun c w => H0.hq _ c w) (fun c t => H0.howed _ c t) (fun c t => H0.hrec _ c t)
    (fun c => H0.hΦ0 _ c) (fun c => H0.hΦN _ c) (fun c => H0.hbody _ c) (X1 m) (X2 H0 m) (fun c w => H0.hA _ c w)
    (fun c w => exit_arr H0 (X1 m) c (6 : Fin 7) (by decide) w) (fun c => exit_rest (p := 0) (X1 m c) (6 : Fin 7) _)
def reg1 : Pipeline.RegionSeg (pcfgs (F := F)) adm (pdats H0 H1 H2 H3 m) () defs₀ 𝒱₀ L lv 1 :=
  mkReg (pdats H0 H1 H2 H3 m) 1 launch1 (fun c w => H1.hq _ c w) (fun c t => H1.howed _ c t) (fun c t => H1.hrec _ c t)
    (fun c => H1.hΦ0 _ c) (fun c => H1.hΦN _ c) (fun c => H1.hbody _ c) (X2 H0 m) (X3 H0 H1 m) (fun c w => H1.hA _ c w)
    (fun c w => exit_arr H1 (X2 H0 m) c (1 : Fin 2) (by decide) w) (fun c => exit_rest (p := 1) (X2 H0 m c) (1 : Fin 2) _)
def reg2 : Pipeline.RegionSeg (pcfgs (F := F)) adm (pdats H0 H1 H2 H3 m) () defs₀ 𝒱₀ L lv 2 :=
  mkReg (pdats H0 H1 H2 H3 m) 2 launch2 (fun c w => H2.hq _ c w) (fun c t => H2.howed _ c t) (fun c t => H2.hrec _ c t)
    (fun c => H2.hΦ0 _ c) (fun c => H2.hΦN _ c) (fun c => H2.hbody _ c) (X4 H0 H1 m) (X5 H0 H1 H2 m) (fun c w => H2.hA _ c w)
    (fun c w => exit_arr H2 (X4 H0 H1 m) c (3 : Fin 4) (by decide) w) (fun c => exit_rest (p := 2) (X4 H0 H1 m c) (3 : Fin 4) _)
def reg3 : Pipeline.RegionSeg (pcfgs (F := F)) adm (pdats H0 H1 H2 H3 m) () defs₀ 𝒱₀ L lv 3 :=
  mkReg (pdats H0 H1 H2 H3 m) 3 launch3 (fun c w => H3.hq _ c w) (fun c t => H3.howed _ c t) (fun c t => H3.hrec _ c t)
    (fun c => H3.hΦ0 _ c) (fun c => H3.hΦN _ c) (fun c => H3.hbody _ c) (X6 H0 H1 H2 m) (X7 H0 H1 H2 H3 m) (fun c w => H3.hA _ c w)
    (fun c w => exit_arr H3 (X6 H0 H1 H2 m) c (9 : Fin 10) (by decide) w) (fun c => exit_rest (p := 3) (X6 H0 H1 H2 m c) (9 : Fin 10) _)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : R (F := F) c ⊢ (iprop(∃ W, owes (c : Thread nD τ) (0 : CellTallies nD τ sig Unit) W) : sProp 𝕄) := by
  iintro ⟨-, HO⟩; iexact HO

end Run

end Cert.KernelIdeal.Hand

end
-- ==== Proof.FrameRunVal.lean ====
import proofs.«415688_j20925080666769_1_alg».proof.Proof.FrameRun
import proofs.«415688_j20925080666769_1_alg».proof.Proof.RegionsVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (H0 : Half F 0) (H1 : Half F 1) (H2 : Half F 2) (H3 : Half F 3)
variable (m : (ℓ : Loc nD τ sig) → Buf (Elt F) ℓ)

include H0 H1 H2 H3 in

theorem frameVal (ρ : Dev nD → PrngReg) :
    θ_run defs (onTc (τ := τ) (main (F := F))) ⟨m, fun _ => 0, ρ⟩ (fun r => ∀ c : Dev nD,
      r.2.mem ((c.tc : Thread nD τ).loc main_v58) = o7 H0 H1 H2 H3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (by rw [V7_eq]; exact Function.update_self _ _ _), (h c).2⟩)
    (Gen.frame_cond_val m emb₁ () 𝒱₀ L lv (fun _ _ => rfl) ρ (outs H0 H1 H2 H3 m) (pdats H0 H1 H2 H3 m)
      (0 : Dev nD → CellTallies nD τ sig Unit) (fun _ => (BI.emp : sProp 𝕄))
      (initOf (Pipeline.cells cfgs cellOf_inj) (Pipeline.launchToks cfgs cellOf_inj)) hu₀
      (fun _ c => R c) (hE0 ρ) hE4
      (reg0 H0 H1 H2 H3 m) (fun c => .rfl) (fun c => by rw [V2_eq]; exact .rfl)
      (reg1 H0 H1 H2 H3 m) (fun c => by rw [V2_eq]; exact .rfl) (fun c => by rw [V3_eq]; exact .rfl)
      (reg2 H0 H1 H2 H3 m) (fun c => by rw [V4_eq]; exact .rfl) (fun c => by rw [V5_eq]; exact .rfl)
      (reg3 H0 H1 H2 H3 m) (fun c => by rw [V6_eq]; exact .rfl) (fun c => by rw [V7_eq]; exact .rfl))

end Cert.KernelIdeal.Hand

end
-- ==== Proof.RefTerm.lean ====
import proofs.«415688_j20925080666769_1_alg».proof.ReferenceIdeal

noncomputable section

namespace Cert.ReferenceIdeal.RefTerm

open Idealize.ShloMosaic Idealize.SL.Sem
open Cert.ReferenceIdeal Cert.ReferenceIdeal.Facts₀ Cert.ReferenceIdeal.Facts

variable {F : FTy → Type} [FloatOps F] [Facts]

set_option hygiene false in
local macro "𝔸[" s:term ", " e:term "]" : term => `((⟨$s, $e⟩ : BufTy).Contents (Elt F))

def zero : 𝔸[S_, .f32] := constant S_ .f32 0x00000000#32

def one : 𝔸[S_, .f32] := constant S_ .f32 0x3F800000#32

def nNodes : 𝔸[S_, .f32] := constant S_ .f32 0x47C35000#32

def eps : 𝔸[S_, .f32] := constant S_ .f32 0x3727C5AC#32

def qnan : 𝔸[S_, .f32] := constant S_ .f32 0x7FC00000#32

section Edges

variable (a1 : 𝔸[S2x1600000, .i32])

def src : 𝔸[S1600000, .i32] :=
  shapeCast S1600000 (extractStridedSlice S1x1600000 ![0, 0] a1 slices_S2x1600000_S1x1600000_0_0) shapeCasts_S1x1600000_S1600000

def dst : 𝔸[S1600000, .i32] :=
  shapeCast S1600000 (extractStridedSlice S1x1600000 ![1, 0] a1 slices_S2x1600000_S1x1600000_1_0) shapeCasts_S1x1600000_S1600000

def srcWrapped : 𝔸[S1600000, .i32] :=
  select (cmpi .slt (src a1) (broadcastInDim S1600000 ![] bcast_S_S1600000 (constantI S_ 32 0#32)))
    (addi (src a1) (broadcastInDim S1600000 ![] bcast_S_S1600000 (constantI S_ 32 100000#32))) (src a1)

def srcRow : 𝔸[S1600000x1, .i32] := broadcastInDim S1600000x1 ![0] bcast_S1600000_S1600000x1_0 (srcWrapped a1)

def dstRow : 𝔸[S1600000x1, .i32] := broadcastInDim S1600000x1 ![0] bcast_S1600000_S1600000x1_0 (dst a1)

def deg : 𝔸[S100000, .f32] :=
  Host.scatterAdd scatter_S100000_S1600000x1_S1600000_n_0_0_1 (broadcastInDim S100000 ![] bcast_S_S100000 zero) (dstRow a1)
    (broadcastInDim S1600000 ![] bcast_S_S1600000 one)

def dmax : 𝔸[S100000, .f32] := maximumf (deg a1) (broadcastInDim S100000 ![] bcast_S_S100000 one)

def dmaxB : 𝔸[S100000x128, .f32] :=
  broadcastInDim S100000x128 ![0, 1] bcast_S100000x1_S100000x128_0_1 (broadcastInDim S100000x1 ![0] bcast_S100000_S100000x1_0 (dmax a1))

end Edges

def rowB (b : 𝔸[S128, .f32]) : 𝔸[S100000x128, .f32] :=
  broadcastInDim S100000x128 ![0, 1] bcast_S1x128_S100000x128_0_1 (broadcastInDim S1x128 ![1] bcast_S128_S1x128_1 b)

section Layer

variable (x : 𝔸[S100000x128, .f32]) (a1 : 𝔸[S2x1600000, .i32])

def gathered : 𝔸[S1600000x128, .f32] :=
  Host.gather gather_S100000x128_S1600000x1_S1600000x128_1_0_n_n_0_1_1128 x (srcRow a1)

def aggOf : 𝔸[S100000x128, .f32] :=
  Host.scatterAdd scatter_S100000x128_S1600000x1_S1600000x128_1_0_0_1 (broadcastInDim S100000x128 ![] bcast_S_S100000x128 zero) (dstRow a1)
    (gathered x a1)

def meanAgg : 𝔸[S100000x128, .f32] := Host.divf (aggOf x a1) (dmaxB a1)

def sage (wl : 𝔸[S128x128, .f32]) (bl : 𝔸[S128, .f32]) (wr : 𝔸[S128x128, .f32]) : 𝔸[S100000x128, .f32] :=
  addf
    (addf
      (Host.dotGeneral dot_S100000x128_S128x128_S100000x128_1_0_0_1_n_n none (meanAgg x a1)
        (transpose S128x128 [1, 0] wl transposes_S128x128_S128x128_1_0))
      (rowB bl))
    (Host.dotGeneral dot_S100000x128_S128x128_S100000x128_1_0_0_1_n_n none x (transpose S128x128 [1, 0] wr transposes_S128x128_S128x128_1_0))

end Layer

section Norm

variable (x : 𝔸[S100000x128, .f32])

def colSum : 𝔸[S128, .f32] := Host.reduceAdd x zero reducesTo_S100000x128_S128_d0 h_S_

def muOf : 𝔸[S128, .f32] := Host.divf (colSum x) (broadcastInDim S128 ![] bcast_S_S128 nNodes)

def centered : 𝔸[S100000x128, .f32] :=
  subf x (broadcastInDim S100000x128 ![0, 1] bcast_S1x128_S100000x128_0_1
    (Host.divf (broadcastInDim S1x128 ![1] bcast_S128_S1x128_1 (colSum x)) (broadcastInDim S1x128 ![] bcast_S_S1x128 nNodes)))

def varDen : 𝔸[S_, .f32] := subf nNodes (sitofp .f32 (constantI S_ 32 0#32))

def varOf : 𝔸[S128, .f32] :=
  select (broadcastInDim S128 ![] bcast_S_S128 (cmpf .ogt (varDen (F := F)) zero))
    (Host.divf (colSum (mulf (centered x) (centered x))) (broadcastInDim S128 ![] bcast_S_S128 varDen))
    (broadcastInDim S128 ![] bcast_S_S128 qnan)

def rstdOf : 𝔸[S128, .f32] := Host.rsqrt (addf (varOf x) (broadcastInDim S128 ![] bcast_S_S128 eps))

def bn (g b : 𝔸[S128, .f32]) : 𝔸[S100000x128, .f32] :=
  addf (mulf (mulf (subf x (rowB (muOf x))) (rowB (rstdOf x))) (rowB g)) (rowB b)

def relu : 𝔸[S100000x128, .f32] := maximumf x (broadcastInDim S100000x128 ![] bcast_S_S100000x128 zero)

end Norm

section Pool

variable (a2 : 𝔸[S100000, .i32])

def batchRow : 𝔸[S100000x1, .i32] := broadcastInDim S100000x1 ![0] bcast_S100000_S100000x1_0 a2

def poolSum (x : 𝔸[S100000x128, .f32]) : 𝔸[S64x128, .f32] :=
  Host.scatterAdd scatter_S64x128_S100000x1_S100000x128_1_0_0_1 (broadcastInDim S64x128 ![] bcast_S_S64x128 zero) (batchRow a2) x

def cnt : 𝔸[S64, .f32] :=
  Host.scatterAdd scatter_S64_S100000x1_S100000_n_0_0_1 (broadcastInDim S64 ![] bcast_S_S64 zero) (batchRow a2)
    (broadcastInDim S100000 ![] bcast_S_S100000 one)

def cntB : 𝔸[S64x128, .f32] :=
  broadcastInDim S64x128 ![0, 1] bcast_S64x1_S64x128_0_1
    (broadcastInDim S64x1 ![0] bcast_S64_S64x1_0 (maximumf (cnt a2) (broadcastInDim S64 ![] bcast_S_S64 one)))

def head (p : 𝔸[S64x128, .f32]) (w : 𝔸[S64x128, .f32]) (b : 𝔸[S64, .f32]) : 𝔸[S64x64, .f32] :=
  addf
    (Host.dotGeneral dot_S64x128_S128x64_S64x64_1_0_0_1_n_n none (Host.divf p (cntB a2)) (transpose S128x64 [1, 0] w transposes_S64x128_S128x64_1_0))
    (broadcastInDim S64x64 ![0, 1] bcast_S1x64_S64x64_0_1 (broadcastInDim S1x64 ![1] bcast_S64_S1x64_1 b))

end Pool

section Main

variable (a0 : 𝔸[S100000x128, .f32]) (a1 : 𝔸[S2x1600000, .i32]) (a2 : 𝔸[S100000, .i32])
  (a3 : 𝔸[S128x128, .f32]) (a4 : 𝔸[S128, .f32]) (a5 : 𝔸[S128x128, .f32]) (a6 a7 : 𝔸[S128, .f32])
  (a8 : 𝔸[S128x128, .f32]) (a9 : 𝔸[S128, .f32]) (a10 : 𝔸[S128x128, .f32]) (a11 : 𝔸[S64x128, .f32]) (a12 : 𝔸[S64, .f32])

def agg1 : 𝔸[S100000x128, .f32] := aggOf a0 a1

def h1pre : 𝔸[S100000x128, .f32] := sage a0 a1 a3 a4 a5

def mu : 𝔸[S128, .f32] := muOf (h1pre a0 a1 a3 a4 a5)

def var : 𝔸[S128, .f32] := varOf (h1pre a0 a1 a3 a4 a5)

def h1bn : 𝔸[S100000x128, .f32] := bn (h1pre a0 a1 a3 a4 a5) a6 a7

def h1 : 𝔸[S100000x128, .f32] := relu (h1bn a0 a1 a3 a4 a5 a6 a7)

def agg2 : 𝔸[S100000x128, .f32] := aggOf (h1 a0 a1 a3 a4 a5 a6 a7) a1

def out2 : 𝔸[S100000x128, .f32] := sage (h1 a0 a1 a3 a4 a5 a6 a7) a1 a8 a9 a10

def pooled : 𝔸[S64x128, .f32] := poolSum a2 (out2 a0 a1 a3 a4 a5 a6 a7 a8 a9 a10)

def out : 𝔸[S64x64, .f32] := head a2 (pooled a0 a1 a2 a3 a4 a5 a6 a7 a8 a9 a10) a11 a12

end Main

end Cert.ReferenceIdeal.RefTerm

end
-- ==== Proof.RefRun1.lean ====
import proofs.«415688_j20925080666769_1_alg».proof.Proof.RefTerm
import proofs.«415688_j20925080666769_1_alg».proof.Proof.Gen.ReferenceIdeal
import Idealize.ShloMosaic.Lib.StableHlo.Run

set_option Elab.async false

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

abbrev ops_w0 : List (HloOp τ sig (Elt F)) :=
  [ StableHlo.unary main_arg1 main_v0 (extractStridedSlice S1x1600000 ![0, 0] · slices_S2x1600000_S1x1600000_0_0),
    StableHlo.reshape main_v0 main_v1 rfl shapeCasts_S1x1600000_S1600000,
    StableHlo.unary main_arg1 main_v2 (extractStridedSlice S1x1600000 ![1, 0] · slices_S2x1600000_S1x1600000_1_0),
    StableHlo.reshape main_v2 main_v3 rfl shapeCasts_S1x1600000_S1600000,
    StableHlo.nullary main_c (constantI S_ 32 0#32),
    StableHlo.unary main_c main_v4 (broadcastInDim S1600000 ![] bcast_S_S1600000),
    StableHlo.binary main_v1 main_v4 main_v5 (cmpi .slt),
    StableHlo.nullary main_c_0 (constantI S_ 32 100000#32),
    StableHlo.unary main_c_0 main_v6 (broadcastInDim S1600000 ![] bcast_S_S1600000),
    StableHlo.binary main_v1 main_v6 main_v7 addi,
    StableHlo.ternary main_v5 main_v7 main_v1 main_v8 select,
    StableHlo.unary main_v8 main_v9 (broadcastInDim S1600000x1 ![0] bcast_S1600000_S1600000x1_0),
    StableHlo.binary main_arg0 main_v9 main_v10 (fun x i => Host.gather gather_S100000x128_S1600000x1_S1600000x128_1_0_n_n_0_1_1128 x i),
    StableHlo.nullary main_cst (constant S_ .f32 0x00000000#32),
    StableHlo.unary main_cst main_v11 (broadcastInDim S100000x128 ![] bcast_S_S100000x128),
    StableHlo.unary main_v3 main_v12 (broadcastInDim S1600000x1 ![0] bcast_S1600000_S1600000x1_0),
    StableHlo.ternary main_v11 main_v12 main_v10 main_v13 (fun x i u => Host.scatterAdd scatter_S100000x128_S1600000x1_S1600000x128_1_0_0_1 x i u),
    StableHlo.nullary main_cst_1 (constant S_ .f32 0x3F800000#32),
    StableHlo.unary main_cst_1 main_v14 (broadcastInDim S1600000 ![] bcast_S_S1600000),
    StableHlo.nullary main_cst_2 (constant S_ .f32 0x00000000#32),
    StableHlo.unary main_cst_2 main_v15 (broadcastInDim S100000 ![] bcast_S_S100000),
    StableHlo.unary main_v3 main_v16 (broadcastInDim S1600000x1 ![0] bcast_S1600000_S1600000x1_0),
    StableHlo.ternary main_v15 main_v16 main_v14 main_v17 (fun x i u => Host.scatterAdd scatter_S100000_S1600000x1_S1600000_n_0_0_1 x i u),
    StableHlo.nullary main_cst_3 (constant S_ .f32 0x3F800000#32),
    StableHlo.unary main_cst_3 main_v18 (broadcastInDim S100000 ![] bcast_S_S100000),
    StableHlo.binary main_v17 main_v18 main_v19 maximumf,
    StableHlo.unary main_v19 main_v20 (broadcastInDim S100000x1 ![0] bcast_S100000_S100000x1_0),
    StableHlo.unary main_v20 main_v21 (broadcastInDim S100000x128 ![0, 1] bcast_S100000x1_S100000x128_0_1),
    StableHlo.binary main_v13 main_v21 main_v22 Host.divf,
    StableHlo.unary main_arg3 main_v23 (transpose S128x128 [1, 0] · transposes_S128x128_S128x128_1_0),
    StableHlo.binary main_v22 main_v23 main_v24 (fun l r => Host.dotGeneral dot_S100000x128_S128x128_S100000x128_1_0_0_1_n_n none l r),
    StableHlo.unary main_arg4 main_v25 (broadcastInDim S1x128 ![1] bcast_S128_S1x128_1),
    StableHlo.unary main_v25 main_v26 (broadcastInDim S100000x128 ![0, 1] bcast_S1x128_S100000x128_0_1),
    StableHlo.binary main_v24 main_v26 main_v27 addf,
    StableHlo.unary main_arg5 main_v28 (transpose S128x128 [1, 0] · transposes_S128x128_S128x128_1_0),
    StableHlo.binary main_arg0 main_v28 main_v29 (fun l r => Host.dotGeneral dot_S100000x128_S128x128_S100000x128_1_0_0_1_n_n none l r),
    StableHlo.binary main_v27 main_v29 main_v30 addf,
    StableHlo.nullary main_cst_4 (constant S_ .f32 0x00000000#32),
    StableHlo.binary main_v30 main_cst_4 main_v31 (fun x v => Host.reduceAdd x v reducesTo_S100000x128_S128_d0 h_S_),
    StableHlo.nullary main_cst_5 (constant S_ .f32 0x47C35000#32),
    StableHlo.unary main_cst_5 main_v32 (broadcastInDim S128 ![] bcast_S_S128),
    StableHlo.binary main_v31 main_v32 main_v33 Host.divf,
    StableHlo.nullary main_c_6 (constantI S_ 32 0#32) ]

abbrev ops_w1 : List (HloOp τ sig (Elt F)) :=
  [ StableHlo.TRef.nullary main_call0.cst (constant S_ .f32 0x00000000#32),
    StableHlo.TRef.binary (TRef.of main_v30 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (TRef.of main_v30 : TRef sig ⟨S100000x128, .f32⟩) main_call0.v4 main_call0.v5 subf,
    StableHlo.TRef.binary main_call0.v5 main_call0.v5 main_call0.v6 mulf,
    StableHlo.TRef.unary (TRef.of main_c_6 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

abbrev ops_w2 : List (HloOp τ sig (Elt F)) :=
  [ StableHlo.unary main_v33 main_v35 (broadcastInDim S1x128 ![1] bcast_S128_S1x128_1),
    StableHlo.unary main_v35 main_v36 (broadcastInDim S100000x128 ![0, 1] bcast_S1x128_S100000x128_0_1),
    StableHlo.binary main_v30 main_v36 main_v37 subf,
    StableHlo.nullary main_cst_7 (constant S_ .f32 0x3727C5AC#32),
    StableHlo.unary main_cst_7 main_v38 (broadcastInDim S128 ![] bcast_S_S128),
    StableHlo.binary main_v34 main_v38 main_v39 addf,
    StableHlo.unary main_v39 main_v40 Host.rsqrt,
    StableHlo.unary main_v40 main_v41 (broadcastInDim S1x128 ![1] bcast_S128_S1x128_1),
    StableHlo.unary main_v41 main_v42 (broadcastInDim S100000x128 ![0, 1] bcast_S1x128_S100000x128_0_1),
    StableHlo.binary main_v37 main_v42 main_v43 mulf,
    StableHlo.unary main_arg6 main_v44 (broadcastInDim S1x128 ![1] bcast_S128_S1x128_1),
    StableHlo.unary main_v44 main_v45 (broadcastInDim S100000x128 ![0, 1] bcast_S1x128_S100000x128_0_1),
    StableHlo.binary main_v43 main_v45 main_v46 mulf,
    StableHlo.unary main_arg7 main_v47 (broadcastInDim S1x128 ![1] bcast_S128_S1x128_1),
    StableHlo.unary main_v47 main_v48 (broadcastInDim S100000x128 ![0, 1] bcast_S1x128_S100000x128_0_1),
    StableHlo.binary main_v46 main_v48 main_v49 addf ]

abbrev ops_w3 : List (HloOp τ sig (Elt F)) :=
  [ StableHlo.TRef.nullary main_call1.cst (constant S_ .f32 0x00000000#32),
    StableHlo.TRef.unary main_call1.cst main_call1.v0 (broadcastInDim S100000x128 ![] bcast_S_S100000x128),
    StableHlo.TRef.binary (TRef.of main_v49 : TRef sig ⟨S100000x128, .f32⟩) main_call1.v0 main_call1.v1 maximumf,
    StableHlo.nullary main_c_8 (constantI S_ 32 0#32),
    StableHlo.unary main_c_8 main_v51 (broadcastInDim S1600000 ![] bcast_S_S1600000),
    StableHlo.binary main_v1 main_v51 main_v52 (cmpi .slt),
    StableHlo.nullary main_c_9 (constantI S_ 32 100000#32),
    StableHlo.unary main_c_9 main_v53 (broadcastInDim S1600000 ![] bcast_S_S1600000),
    StableHlo.binary main_v1 main_v53 main_v54 addi,
    StableHlo.ternary main_v52 main_v54 main_v1 main_v55 select,
    StableHlo.unary main_v55 main_v56 (broadcastInDim S1600000x1 ![0] bcast_S1600000_S1600000x1_0),
    StableHlo.binary main_v50 main_v56 main_v57 (fun x i => Host.gather gather_S100000x128_S1600000x1_S1600000x128_1_0_n_n_0_1_1128 x i),
    StableHlo.nullary main_cst_10 (constant S_ .f32 0x00000000#32),
    StableHlo.unary main_cst_10 main_v58 (broadcastInDim S100000x128 ![] bcast_S_S100000x128),
    StableHlo.unary main_v3 main_v59 (broadcastInDim S1600000x1 ![0] bcast_S1600000_S1600000x1_0),
    StableHlo.ternary main_v58 main_v59 main_v57 main_v60 (fun x i u => Host.scatterAdd scatter_S100000x128_S1600000x1_S1600000x128_1_0_0_1 x i u),
    StableHlo.nullary main_cst_11 (constant S_ .f32 0x3F800000#32),
    StableHlo.unary main_cst_11 main_v61 (broadcastInDim S1600000 ![] bcast_S_S1600000),
    StableHlo.nullary main_cst_12 (constant S_ .f32 0x00000000#32),
    StableHlo.unary main_cst_12 main_v62 (broadcastInDim S100000 ![] bcast_S_S100000),
    StableHlo.unary main_v3 main_v63 (broadcastInDim S1600000x1 ![0] bcast_S1600000_S1600000x1_0),
    StableHlo.ternary main_v62 main_v63 main_v61 main_v64 (fun x i u => Host.scatterAdd scatter_S100000_S1600000x1_S1600000_n_0_0_1 x i u),
    StableHlo.nullary main_cst_13 (constant S_ .f32 0x3F800000#32),
    StableHlo.unary main_cst_13 main_v65 (broadcastInDim S100000 ![] bcast_S_S100000),
    StableHlo.binary main_v64 main_v65 main_v66 maximumf,
    StableHlo.unary main_v66 main_v67 (broadcastInDim S100000x1 ![0] bcast_S100000_S100000x1_0),
    StableHlo.unary main_v67 main_v68 (broadcastInDim S100000x128 ![0, 1] bcast_S100000x1_S100000x128_0_1),
    StableHlo.binary main_v60 main_v68 main_v69 Host.divf,
    StableHlo.unary main_arg8 main_v70 (transpose S128x128 [1, 0] · transposes_S128x128_S128x128_1_0),
    StableHlo.binary main_v69 main_v70 main_v71 (fun l r => Host.dotGeneral dot_S100000x128_S128x128_S100000x128_1_0_0_1_n_n none l r),
    StableHlo.unary main_arg9 main_v72 (broadcastInDim S1x128 ![1] bcast_S128_S1x128_1),
    StableHlo.unary main_v72 main_v73 (broadcastInDim S100000x128 ![0, 1] bcast_S1x128_S100000x128_0_1),
    StableHlo.binary main_v71 main_v73 main_v74 addf,
    StableHlo.unary main_arg10 main_v75 (transpose S128x128 [1, 0] · transposes_S128x128_S128x128_1_0),
    StableHlo.binary main_v50 main_v75 main_v76 (fun l r => Host.dotGeneral dot_S100000x128_S128x128_S100000x128_1_0_0_1_n_n none l r),
    StableHlo.binary main_v74 main_v76 main_v77 addf,
    StableHlo.nullary main_cst_14 (constant S_ .f32 0x00000000#32),
    StableHlo.unary main_cst_14 main_v78 (broadcastInDim S64x128 ![] bcast_S_S64x128),
    StableHlo.unary main_arg2 main_v79 (broadcastInDim S100000x1 ![0] bcast_S100000_S100000x1_0),
    StableHlo.ternary main_v78 main_v79 main_v77 main_v80 (fun x i u => Host.scatterAdd scatter_S64x128_S100000x1_S100000x128_1_0_0_1 x i u),
    StableHlo.nullary main_cst_15 (constant S_ .f32 0x3F800000#32),
    StableHlo.unary main_cst_15 main_v81 (broadcastInDim S100000 ![] bcast_S_S100000),
    StableHlo.nullary main_cst_16 (constant S_ .f32 0x00000000#32),
    StableHlo.unary main_cst_16 main_v82 (broadcastInDim S64 ![] bcast_S_S64),
    StableHlo.unary main_arg2 main_v83 (broadcastInDim S100000x1 ![0] bcast_S100000_S100000x1_0),
    StableHlo.ternary main_v82 main_v83 main_v81 main_v84 (fun x i u => Host.scatterAdd scatter_S64_S100000x1_S100000_n_0_0_1 x i u),
    StableHlo.nullary main_cst_17 (constant S_ .f32 0x3F800000#32),
    StableHlo.unary main_cst_17 main_v85 (broadcastInDim S64 ![] bcast_S_S64),
    StableHlo.binary main_v84 main_v85 main_v86 maximumf,
    StableHlo.unary main_v86 main_v87 (broadcastInDim S64x1 ![0] bcast_S64_S64x1_0),
    StableHlo.unary main_v87 main_v88 (broadcastInDim S64x128 ![0, 1] bcast_S64x1_S64x128_0_1),
    StableHlo.binary main_v80 main_v88 main_v89 Host.divf,
    StableHlo.unary main_arg11 main_v90 (transpose S128x64 [1, 0] · transposes_S64x128_S128x64_1_0),
    StableHlo.binary main_v89 main_v90 main_v91 (fun l r => Host.dotGeneral dot_S64x128_S128x64_S64x64_1_0_0_1_n_n none l r),
    StableHlo.unary main_arg12 main_v92 (broadcastInDim S1x64 ![1] bcast_S64_S1x64_1),
    StableHlo.unary main_v92 main_v93 (broadcastInDim S64x64 ![0, 1] bcast_S1x64_S64x64_0_1),
    StableHlo.binary main_v91 main_v93 main_v94 addf ]

abbrev ops : List (HloOp τ sig (Elt F)) :=
  ops_w0 ++ (ops_w1 ++ (ops_w2 ++ ops_w3))

theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

set_option maxRecDepth 8192 in

theorem main_part0_eq (c : Dev nD) : main_part0 (F := F) c = seq (ops_w0 ++ (ops_w1 ++ ops_w2)) := by
  simp only [seq_append]
  rfl

set_option maxRecDepth 8192 in

theorem main_part1_eq (c : Dev nD) : main_part1 (F := F) c = seq ops_w3 := rfl

set_option maxRecDepth 8192 in
theorem main_eq (c : Dev nD) : main (F := F) c = seq ops := by
  have h : (ops : List (HloOp τ sig (Elt F))) = (ops_w0 ++ (ops_w1 ++ ops_w2)) ++ ops_w3 := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_w0_sub : (ops_w0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    nullary_bufs_sub ..⟩
set_option maxRecDepth 8192 in
theorem ops_w1_sub : (ops_w1 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
set_option maxRecDepth 8192 in
theorem ops_w2_sub : (ops_w2 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩
set_option maxRecDepth 8192 in
theorem ops_w3_sub : (ops_w3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., unary_bufs_sub .., binary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., unary_bufs_sub .., binary_bufs_sub ..,
    unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_w0_sub op h, List.forall_iff_forall_mem.mp ops_w1_sub op h,
      List.forall_iff_forall_mem.mp ops_w2_sub op h, List.forall_iff_forall_mem.mp ops_w3_sub op h]

abbrev ops_w0_W : List (Ref sig .tc) :=
  [main_v0, main_v1, main_v2, main_v3, main_c, main_v4, main_v5, main_c_0, main_v6, main_v7,
    main_v8, main_v9, main_v10, main_cst, main_v11, main_v12, main_v13, main_cst_1, main_v14, main_cst_2,
    main_v15, main_v16, main_v17, main_cst_3, main_v18, main_v19, main_v20, main_v21, main_v22, main_v23,
    main_v24, main_v25, main_v26, main_v27, main_v28, main_v29, main_v30, main_cst_4, main_v31, main_cst_5,
    main_v32, main_v33, main_c_6]

set_option maxRecDepth 8192 in
theorem ops_w0_writes : (ops_w0 : List (HloOp τ sig (Elt F))).Forall fun op =>
    op.writes ⊆ (ops_w0_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

abbrev ops_w1_W : List (Ref sig .tc) :=
  [main_call0_cst, main_call0_v0, main_call0_v1, main_call0_cst_0, main_call0_v2, main_call0_v3, main_call0_v4, main_call0_v5, main_call0_v6, main_call0_v7,
    main_call0_cst_1, main_call0_v8, main_call0_cst_2, main_call0_v9, main_call0_v10, main_call0_v11, main_call0_cst_3, main_call0_v12, main_call0_cst_4, main_call0_call0_v0,
    main_call0_call0_v1, main_v34]

set_option maxRecDepth 8192 in
theorem ops_w1_writes : (ops_w1 : List (HloOp τ sig (Elt F))).Forall fun op =>
    op.writes ⊆ (ops_w1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

abbrev ops_w2_W : List (Ref sig .tc) :=
  [main_v35, main_v36, main_v37, main_cst_7, main_v38, main_v39, main_v40, main_v41, main_v42, main_v43,
    main_v44, main_v45, main_v46, main_v47, main_v48, main_v49]

set_option maxRecDepth 8192 in
theorem ops_w2_writes : (ops_w2 : List (HloOp τ sig (Elt F))).Forall fun op =>
    op.writes ⊆ (ops_w2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

abbrev ops_w3_W : List (Ref sig .tc) :=
  [main_call1_cst, main_call1_v0, main_v50, main_c_8, main_v51, main_v52, main_c_9, main_v53, main_v54, main_v55,
    main_v56, main_v57, main_cst_10, main_v58, main_v59, main_v60, main_cst_11, main_v61, main_cst_12, main_v62,
    main_v63, main_v64, main_cst_13, main_v65, main_v66, main_v67, main_v68, main_v69, main_v70, main_v71,
    main_v72, main_v73, main_v74, main_v75, main_v76, main_v77, main_cst_14, main_v78, main_v79, main_v80,
    main_cst_15, main_v81, main_cst_16, main_v82, main_v83, main_v84, main_cst_17, main_v85, main_v86, main_v87,
    main_v88, main_v89, main_v90, main_v91, main_v92, main_v93, main_v94]

set_option maxRecDepth 8192 in
theorem ops_w3_writes : (ops_w3 : List (HloOp τ sig (Elt F))).Forall fun op =>
    op.writes ⊆ (ops_w3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem after_ops_keep (V : Valuation τ sig (Elt F)) (r : Ref sig .tc)
    (h0 : r ∉ ops_w0_W := by decide) (h1 : r ∉ ops_w1_W := by decide) (h2 : r ∉ ops_w2_W := by decide) (h3 : r ∉ ops_w3_W := by decide) :
    after ops V (Proc.devRef .tc r) = V (Proc.devRef .tc r) := by
  simp only [ops, after_append']
  rw [after_of_writes_sub ops_w3 _ ops_w3_writes h3, after_of_writes_sub ops_w2 _ ops_w2_writes h2,
    after_of_writes_sub ops_w1 _ ops_w1_writes h1, after_of_writes_sub ops_w0 _ ops_w0_writes h0]

end Cert.ReferenceIdeal.RefRun

end
-- ==== Proof.RefRun.lean ====
import proofs.«415688_j20925080666769_1_alg».proof.Proof.RefRun1
import Idealize.ShloMosaic.PureOps.Ideal

set_option Elab.async false

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

def val1 (V0 : Valuation τ sig (Elt F)) : Valuation τ sig (Elt F) := after ops_w0 V0

theorem val1_keep (V0 : Valuation τ sig (Elt F)) (r : Ref sig .tc) (h : r ∉ ops_w0_W) :
    val1 V0 (Proc.devRef .tc r) = V0 (Proc.devRef .tc r) :=
  after_of_writes_sub ops_w0 _ ops_w0_writes h

set_option maxRecDepth 8192 in
theorem val1_main_v1 (V0 : Valuation τ sig (Elt F)) : val1 V0 (no_index (Proc.devRef .tc main_v1)) = RefTerm.src (V0 (Proc.devRef .tc main_arg1)) := by
  unfold val1
  simp only [ops_w0]
  after_results_simp
  rfl

set_option maxRecDepth 8192 in
theorem val1_main_v3 (V0 : Valuation τ sig (Elt F)) : val1 V0 (no_index (Proc.devRef .tc main_v3)) = RefTerm.dst (V0 (Proc.devRef .tc main_arg1)) := by
  unfold val1
  simp only [ops_w0]
  after_results_simp
  rfl

set_option maxRecDepth 8192 in
theorem val1_main_v30 (V0 : Valuation τ sig (Elt F)) : val1 V0 (no_index (Proc.devRef .tc main_v30)) = RefTerm.h1pre (V0 (Proc.devRef .tc main_arg0)) (V0 (Proc.devRef .tc main_arg1)) (V0 (Proc.devRef .tc main_arg3)) (V0 (Proc.devRef .tc main_arg4)) (V0 (Proc.devRef .tc main_arg5)) := by
  unfold val1
  simp only [ops_w0]
  after_results_simp
  rfl

set_option maxRecDepth 8192 in
theorem val1_main_v33 (V0 : Valuation τ sig (Elt F)) : val1 V0 (no_index (Proc.devRef .tc main_v33)) = RefTerm.mu (V0 (Proc.devRef .tc main_arg0)) (V0 (Proc.devRef .tc main_arg1)) (V0 (Proc.devRef .tc main_arg3)) (V0 (Proc.devRef .tc main_arg4)) (V0 (Proc.devRef .tc main_arg5)) := by
  unfold val1
  simp only [ops_w0]
  after_results_simp
  rfl

set_option maxRecDepth 8192 in
theorem val1_main_c_6 (V0 : Valuation τ sig (Elt F)) : val1 V0 (no_index (Proc.devRef .tc main_c_6)) = (constantI S_ 32 0#32 : (⟨S_, .i32⟩ : BufTy).Contents (Elt F)) := by
  unfold val1
  simp only [ops_w0]
  after_results_simp

def val2 (V0 : Valuation τ sig (Elt F)) : Valuation τ sig (Elt F) := after ops_w1 (val1 V0)

theorem val2_keep (V0 : Valuation τ sig (Elt F)) (r : Ref sig .tc) (h : r ∉ ops_w1_W) :
    val2 V0 (Proc.devRef .tc r) = val1 V0 (Proc.devRef .tc r) :=
  after_of_writes_sub ops_w1 _ ops_w1_writes h

theorem val2_of1 (V0 : Valuation τ sig (Elt F)) (r : Ref sig .tc) (h : r ∉ ops_w1_W) {x} (hx : val1 V0 (Proc.devRef .tc r) = x) :
    val2 V0 (no_index (Proc.devRef .tc r)) = x := (val2_keep V0 r h).trans hx

set_option maxRecDepth 8192 in
theorem val2_main_v34 (V0 : Valuation τ sig (Elt F)) : val2 V0 (no_index (Proc.devRef .tc main_v34)) = RefTerm.var (V0 (Proc.devRef .tc main_arg0)) (V0 (Proc.devRef .tc main_arg1)) (V0 (Proc.devRef .tc main_arg3)) (V0 (Proc.devRef .tc main_arg4)) (V0 (Proc.devRef .tc main_arg5)) := by
  unfold val2
  simp only [ops_w1]
  after_results_simp
  simp only [val1_main_v30, val1_main_c_6]
  rfl

def val3 (V0 : Valuation τ sig (Elt F)) : Valuation τ sig (Elt F) := after ops_w2 (val2 V0)

theorem val3_keep (V0 : Valuation τ sig (Elt F)) (r : Ref sig .tc) (h : r ∉ ops_w2_W) :
    val3 V0 (Proc.devRef .tc r) = val2 V0 (Proc.devRef .tc r) :=
  after_of_writes_sub ops_w2 _ ops_w2_writes h

theorem val3_of1 (V0 : Valuation τ sig (Elt F)) (r : Ref sig .tc) (h1 : r ∉ ops_w1_W) (h2 : r ∉ ops_w2_W) {x} (hx : val1 V0 (Proc.devRef .tc r) = x) :
    val3 V0 (no_index (Proc.devRef .tc r)) = x := (val3_keep V0 r h2).trans (val2_of1 V0 r h1 hx)

set_option maxRecDepth 8192 in
theorem val3_main_v49 (V0 : Valuation τ sig (Elt F)) : val3 V0 (no_index (Proc.devRef .tc main_v49)) = RefTerm.h1bn (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) := by
  unfold val3
  simp only [ops_w2]
  after_results_simp
  simp only [val2_of1 V0 main_v30 (by decide) (val1_main_v30 V0), val2_of1 V0 main_v33 (by decide) (val1_main_v33 V0), val2_main_v34,
    val2_of1 V0 main_arg6 (by decide) (val1_keep V0 main_arg6 (by decide)), val2_of1 V0 main_arg7 (by decide) (val1_keep V0 main_arg7 (by decide))]
  rfl

def val4 (V0 : Valuation τ sig (Elt F)) : Valuation τ sig (Elt F) := after ops_w3 (val3 V0)

set_option maxRecDepth 8192 in
theorem val4_main_v94 (V0 : Valuation τ sig (Elt F)) : val4 V0 (no_index (Proc.devRef .tc main_v94)) = RefTerm.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  unfold val4
  simp only [ops_w3]
  after_results_simp
  simp only [val3_main_v49, val3_of1 V0 main_v1 (by decide) (by decide) (val1_main_v1 V0), val3_of1 V0 main_v3 (by decide) (by decide) (val1_main_v3 V0),
    val3_of1 V0 main_arg2 (by decide) (by decide) (val1_keep V0 main_arg2 (by decide)),
    val3_of1 V0 main_arg8 (by decide) (by decide) (val1_keep V0 main_arg8 (by decide)),
    val3_of1 V0 main_arg9 (by decide) (by decide) (val1_keep V0 main_arg9 (by decide)),
    val3_of1 V0 main_arg10 (by decide) (by decide) (val1_keep V0 main_arg10 (by decide)),
    val3_of1 V0 main_arg11 (by decide) (by decide) (val1_keep V0 main_arg11 (by decide)),
    val3_of1 V0 main_arg12 (by decide) (by decide) (val1_keep V0 main_arg12 (by decide))]
  rfl

theorem after_ops (V0 : Valuation τ sig (Elt F)) : after ops V0 = val4 V0 := by
  simp only [ops, after_append']
  rfl

theorem after_ops_main_v94 (V0 : Valuation τ sig (Elt F)) :
    after ops V0 (Proc.devRef .tc main_v94) = RefTerm.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) := by
  rw [after_ops]; exact val4_main_v94 V0

set_option maxRecDepth 8192 in

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v94) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_v94).trans (after_ops_main_v94 (launchContents m c)),
      (h c main_arg0).trans (after_ops_keep (launchContents m c) main_arg0),
      (h c main_arg1).trans (after_ops_keep (launchContents m c) main_arg1),
      (h c main_arg2).trans (after_ops_keep (launchContents m c) main_arg2),
      (h c main_arg3).trans (after_ops_keep (launchContents m c) main_arg3),
      (h c main_arg4).trans (after_ops_keep (launchContents m c) main_arg4),
      (h c main_arg5).trans (after_ops_keep (launchContents m c) main_arg5),
      (h c main_arg6).trans (after_ops_keep (launchContents m c) main_arg6),
      (h c main_arg7).trans (after_ops_keep (launchContents m c) main_arg7),
      (h c main_arg8).trans (after_ops_keep (launchContents m c) main_arg8),
      (h c main_arg9).trans (after_ops_keep (launchContents m c) main_arg9),
      (h c main_arg10).trans (after_ops_keep (launchContents m c) main_arg10),
      (h c main_arg11).trans (after_ops_keep (launchContents m c) main_arg11),
      (h c main_arg12).trans (after_ops_keep (launchContents m c) main_arg12)⟩)
    (run_seq scopedRefs_eq scopedSems_eq defs main (fun _ => ops) main_eq (fun _ => ops_sub) m ρ)

end Cert.ReferenceIdeal.RefRun

end
-- ==== Proof.KTerm.lean ====
import proofs.«415688_j20925080666769_1_alg».proof.Proof.Gen.KernelIdeal
import Idealize.ShloMosaic.PureOps.Ideal

noncomputable section

namespace Cert.KernelIdeal.Hand

open Idealize.ShloMosaic Idealize.SL.Sem
open Cert.KernelIdeal.Gen

namespace KTerm

def srcVec (a1 : (⟨S2x1600000, .i32⟩ : BufTy).Contents (Elt Ideal)) : (⟨S1600000, .i32⟩ : BufTy).Contents (Elt Ideal) :=
  shapeCast S1600000
    (extractStridedSlice S1x1600000 ![0, 0] a1 slices_S2x1600000_S1x1600000_0_0 : (⟨S1x1600000, .i32⟩ : BufTy).Contents (Elt Ideal))
    shapeCasts_S1x1600000_S1600000

def dstVec (a1 : (⟨S2x1600000, .i32⟩ : BufTy).Contents (Elt Ideal)) : (⟨S1600000, .i32⟩ : BufTy).Contents (Elt Ideal) :=
  shapeCast S1600000
    (extractStridedSlice S1x1600000 ![1, 0] a1 slices_S2x1600000_S1x1600000_1_0 : (⟨S1x1600000, .i32⟩ : BufTy).Contents (Elt Ideal))
    shapeCasts_S1x1600000_S1600000

def dstCol (a1 : (⟨S2x1600000, .i32⟩ : BufTy).Contents (Elt Ideal)) : (⟨S1600000x1, .i32⟩ : BufTy).Contents (Elt Ideal) :=
  broadcastInDim S1600000x1 ![0] bcast_S1600000_S1600000x1_0 (dstVec a1)

def srcCol (a1 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (srcVec a1)
        (broadcastInDim S1600000 ![] bcast_S_S1600000 (constantI S_ 32 0#32) : (⟨S1600000, .i32⟩ : BufTy).Contents (Elt Ideal)) : (⟨S1600000, .i1⟩ : BufTy).Contents (Elt Ideal))
      (addi (srcVec a1)
        (broadcastInDim S1600000 ![] bcast_S_S1600000 (constantI S_ 32 100000#32) : (⟨S1600000, .i32⟩ : BufTy).Contents (Elt Ideal)) : (⟨S1600000, .i32⟩ : BufTy).Contents (Elt Ideal))
      (srcVec a1) : (⟨S1600000, .i32⟩ : BufTy).Contents (Elt Ideal))

def deg (a1 : (⟨S2x1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32) : (⟨S100000, .f32⟩ : BufTy).Contents (Elt Ideal))
    (dstCol a1)
    (broadcastInDim S1600000 ![] bcast_S_S1600000 (constant (F := Ideal) S_ .f32 0x3F800000#32) : (⟨S1600000, .f32⟩ : BufTy).Contents (Elt Ideal))

def dmax (a1 : (⟨S2x1600000, .i32⟩ : BufTy).Contents (Elt Ideal)) : (⟨S100000, .f32⟩ : BufTy).Contents (Elt Ideal) :=
  maximumf (F := Ideal) (φ := .f32) (deg a1)
    (broadcastInDim S100000 ![] bcast_S_S100000 (constant (F := Ideal) S_ .f32 0x3F800000#32) : (⟨S100000, .f32⟩ : BufTy).Contents (Elt Ideal))

def degInv (a1 : (⟨S2x1600000, .i32⟩ : BufTy).Contents (Elt Ideal)) : (⟨S100000x1, .f32⟩ : BufTy).Contents (Elt Ideal) :=
  shapeCast S100000x1
    (Host.divf (F := Ideal) (φ := .f32)
      (broadcastInDim S100000 ![] bcast_S_S100000 (constant (F := Ideal) S_ .f32 0x3F800000#32) : (⟨S100000, .f32⟩ : BufTy).Contents (Elt Ideal))
      (dmax a1) : (⟨S100000, .f32⟩ : BufTy).Contents (Elt Ideal))
    shapeCasts_S100000_S100000x1

def agg (X : (⟨S100000x128, .f32⟩ : BufTy).Contents (Elt Ideal)) (a1 : (⟨S2x1600000, .i32⟩ : BufTy).Contents (Elt Ideal)) :
    (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32) : (⟨S100000x128, .f32⟩ : BufTy).Contents (Elt Ideal))
    (dstCol a1)
    (Host.gather gather_S100000x128_S1600000x1_S1600000x128_1_0_n_n_0_1_1128 X (srcCol a1) : (⟨S1600000x128, .f32⟩ : BufTy).Contents (Elt Ideal))

def tr (w : (⟨S128x128, .f32⟩ : BufTy).Contents (Elt Ideal)) : (⟨S128x128, .f32⟩ : BufTy).Contents (Elt Ideal) :=
  transpose S128x128 [1, 0] w transposes_S128x128_S128x128_1_0

def trF (a11 : (⟨S64x128, .f32⟩ : BufTy).Contents (Elt Ideal)) : (⟨S128x64, .f32⟩ : BufTy).Contents (Elt Ideal) :=
  transpose S128x64 [1, 0] a11 transposes_S64x128_S128x64_1_0

def batchCol (a2 : (⟨S100000, .i32⟩ : BufTy).Contents (Elt Ideal)) : (⟨S100000x1, .i32⟩ : BufTy).Contents (Elt Ideal) :=
  shapeCast S100000x1 a2 shapeCasts_S100000_S100000x1

def mean (st : (⟨S2x128, .f32⟩ : BufTy).Contents (Elt Ideal)) : (⟨S128, .f32⟩ : BufTy).Contents (Elt Ideal) :=
  Host.divf (F := Ideal) (φ := .f32)
    (shapeCast S128
      (extractStridedSlice S1x128 ![0, 0] st slices_S2x128_S1x128_0_0 : (⟨S1x128, .f32⟩ : BufTy).Contents (Elt Ideal))
      shapeCasts_S1x128_S128 : (⟨S128, .f32⟩ : BufTy).Contents (Elt Ideal))
    (broadcastInDim S128 ![] bcast_S_S128 (constant (F := Ideal) S_ .f32 0x47C35000#32) : (⟨S128, .f32⟩ : BufTy).Contents (Elt Ideal))

def var (st : (⟨S2x128, .f32⟩ : BufTy).Contents (Elt Ideal)) : (⟨S128, .f32⟩ : BufTy).Contents (Elt Ideal) :=
  subf (F := Ideal) (φ := .f32)
    (Host.divf (F := Ideal) (φ := .f32)
      (shapeCast S128
        (extractStridedSlice S1x128 ![1, 0] st slices_S2x128_S1x128_1_0 : (⟨S1x128, .f32⟩ : BufTy).Contents (Elt Ideal))
        shapeCasts_S1x128_S128 : (⟨S128, .f32⟩ : BufTy).Contents (Elt Ideal))
      (broadcastInDim S128 ![] bcast_S_S128 (constant (F := Ideal) S_ .f32 0x47C35000#32) : (⟨S128, .f32⟩ : BufTy).Contents (Elt Ideal)) : (⟨S128, .f32⟩ : BufTy).Contents (Elt Ideal))
    (mulf (F := Ideal) (φ := .f32) (mean st) (mean st) : (⟨S128, .f32⟩ : BufTy).Contents (Elt Ideal))

def scale (st : (⟨S2x128, .f32⟩ : BufTy).Contents (Elt Ideal)) (a6 : (⟨S128, .f32⟩ : BufTy).Contents (Elt Ideal)) :
    (⟨S128, .f32⟩ : BufTy).Contents (Elt Ideal) :=
  mulf (F := Ideal) (φ := .f32)
    (Host.rsqrt (F := Ideal) (φ := .f32)
      (addf (F := Ideal) (φ := .f32) (var st)
        (broadcastInDim S128 ![] bcast_S_S128 (constant (F := Ideal) S_ .f32 0x3727C5AC#32) : (⟨S128, .f32⟩ : BufTy).Contents (Elt Ideal)) : (⟨S128, .f32⟩ : BufTy).Contents (Elt Ideal)) : (⟨S128, .f32⟩ : BufTy).Contents (Elt Ideal))
    a6

def shift (st : (⟨S2x128, .f32⟩ : BufTy).Contents (Elt Ideal)) (a6 a7 : (⟨S128, .f32⟩ : BufTy).Contents (Elt Ideal)) :
    (⟨S128, .f32⟩ : BufTy).Contents (Elt Ideal) :=
  subf (F := Ideal) (φ := .f32) a7 (mulf (F := Ideal) (φ := .f32) (mean st) (scale st a6) : (⟨S128, .f32⟩ : BufTy).Contents (Elt Ideal))

end KTerm

end Cert.KernelIdeal.Hand
-- ==== Proof.HostStagesA.lean ====
import proofs.«415688_j20925080666769_1_alg».proof.Proof.KTerm
import proofs.«415688_j20925080666769_1_alg».proof.Proof.Gen.KernelIdeal.Regions

noncomputable section

namespace Cert.KernelIdeal.Hand

open Idealize.ShloMosaic Idealize.ShloMosaic.TcCoe
open Idealize.SL Idealize.SL.Sem
open Cert.KernelIdeal.Gen

variable (m : (ℓ : Loc nD τ sig) → Buf (Elt Ideal) ℓ) (outs : Gen.Outs (F := Ideal)) (c : Dev nD)

theorem V1_v1 : (Gen.V1 m c main_v1 : (⟨S1600000, .i32⟩ : BufTy).Contents (Elt Ideal))
    = KTerm.srcVec (m ((c : Thread nD τ).loc main_arg1)) := by
  dsimp only [Gen.V1, Gen.hostOps0]
  after_results_simp
  rfl

theorem V1_v3 : (Gen.V1 m c main_v3 : (⟨S1600000, .i32⟩ : BufTy).Contents (Elt Ideal))
    = KTerm.dstVec (m ((c : Thread nD τ).loc main_arg1)) := by
  dsimp only [Gen.V1, Gen.hostOps0]
  after_results_simp
  rfl

theorem V1_v13 : (Gen.V1 m c main_v13 : (⟨S100000x1, .f32⟩ : BufTy).Contents (Elt Ideal))
    = KTerm.degInv (m ((c : Thread nD τ).loc main_arg1)) := by
  dsimp only [Gen.V1, Gen.hostOps0]
  after_results_simp
  rfl

theorem V1_v23 : (Gen.V1 m c main_v23 : (⟨S100000x128, .f32⟩ : BufTy).Contents (Elt Ideal))
    = KTerm.agg (m ((c : Thread nD τ).loc main_arg0)) (m ((c : Thread nD τ).loc main_arg1)) := by
  dsimp only [Gen.V1, Gen.hostOps0]
  after_results_simp
  rfl

theorem V1_v24 : (Gen.V1 m c main_v24 : (⟨S128x128, .f32⟩ : BufTy).Contents (Elt Ideal))
    = KTerm.tr (m ((c : Thread nD τ).loc main_arg3)) := by
  dsimp only [Gen.V1, Gen.hostOps0]
  after_results_simp
  rfl

theorem V1_v25 : (Gen.V1 m c main_v25 : (⟨S128x128, .f32⟩ : BufTy).Contents (Elt Ideal))
    = KTerm.tr (m ((c : Thread nD τ).loc main_arg5)) := by
  dsimp only [Gen.V1, Gen.hostOps0]
  after_results_simp
  rfl

theorem V1_v4 : (Gen.V1 m c main_v4 : (⟨S100000x1, .i32⟩ : BufTy).Contents (Elt Ideal))
    = KTerm.batchCol (m ((c : Thread nD τ).loc main_arg2)) := by
  dsimp only [Gen.V1, Gen.hostOps0]
  after_results_simp
  rfl

theorem V1_arg0 : Gen.V1 m c main_arg0 = m ((c : Thread nD τ).loc main_arg0) :=
  (Gen.V1_of m c main_arg0 (by decide)).trans rfl

theorem V1_arg4 : Gen.V1 m c main_arg4 = m ((c : Thread nD τ).loc main_arg4) :=
  (Gen.V1_of m c main_arg4 (by decide)).trans rfl

end Cert.KernelIdeal.Hand
-- ==== Proof.HostStagesB.lean ====
import proofs.«415688_j20925080666769_1_alg».proof.Proof.KTerm
import proofs.«415688_j20925080666769_1_alg».proof.Proof.Gen.KernelIdeal.Regions

noncomputable section

namespace Cert.KernelIdeal.Hand

open Idealize.ShloMosaic Idealize.ShloMosaic.TcCoe
open Idealize.SL Idealize.SL.Sem
open Cert.KernelIdeal.Gen

variable (m : (ℓ : Loc nD τ sig) → Buf (Elt Ideal) ℓ) (outs : Gen.Outs (F := Ideal)) (c : Dev nD)

theorem V3_v27 : Gen.V3 m outs c main_v27 = outs 3 main_v27 c :=
  Function.update_self _ _ _

theorem V3_arg6 : Gen.V3 m outs c main_arg6 = m ((c : Thread nD τ).loc main_arg6) :=
  (Gen.V3_of m outs c main_arg6 (by decide)).trans <| (Gen.V2_of m outs c main_arg6 (by decide)).trans <|
    (Gen.V1_of m c main_arg6 (by decide)).trans rfl

theorem V3_arg7 : Gen.V3 m outs c main_arg7 = m ((c : Thread nD τ).loc main_arg7) :=
  (Gen.V3_of m outs c main_arg7 (by decide)).trans <| (Gen.V2_of m outs c main_arg7 (by decide)).trans <|
    (Gen.V1_of m c main_arg7 (by decide)).trans rfl

theorem V4_v41 : (Gen.V4 m outs c main_v41 : (⟨S128, .f32⟩ : BufTy).Contents (Elt Ideal))
    = KTerm.scale (outs 3 main_v27 c) (m ((c : Thread nD τ).loc main_arg6)) := by
  dsimp only [Gen.V4, Gen.hostOps2]
  after_results_simp
  rw [V3_v27 m outs c, V3_arg6 m outs c]
  rfl

theorem V4_v43 : (Gen.V4 m outs c main_v43 : (⟨S128, .f32⟩ : BufTy).Contents (Elt Ideal))
    = KTerm.shift (outs 3 main_v27 c) (m ((c : Thread nD τ).loc main_arg6)) (m ((c : Thread nD τ).loc main_arg7)) := by
  dsimp only [Gen.V4, Gen.hostOps2]
  after_results_simp
  rw [V3_v27 m outs c, V3_arg6 m outs c, V3_arg7 m outs c]
  rfl

theorem V4_v26 : Gen.V4 m outs c main_v26 = outs 2 main_v26 c :=
  (Gen.V4_of m outs c main_v26 (by decide)).trans <| (Gen.V3_of m outs c main_v26 (by decide)).trans <|
    Function.update_self _ _ _

end Cert.KernelIdeal.Hand
-- ==== Proof.HostStagesC.lean ====
import proofs.«415688_j20925080666769_1_alg».proof.Proof.KTerm
import proofs.«415688_j20925080666769_1_alg».proof.Proof.Gen.KernelIdeal.Regions
import proofs.«415688_j20925080666769_1_alg».proof.Proof.HostStagesA

noncomputable section

namespace Cert.KernelIdeal.Hand

open Idealize.ShloMosaic Idealize.ShloMosaic.TcCoe
open Idealize.SL Idealize.SL.Sem
open Cert.KernelIdeal.Gen

variable (m : (ℓ : Loc nD τ sig) → Buf (Elt Ideal) ℓ) (outs : Gen.Outs (F := Ideal)) (c : Dev nD)

theorem V5_of1 (r : Ref sig .tc) (h2 : r ∉ ([main_v26] : List (Ref sig .tc)) := by decide) (h3 : r ∉ ([main_v27] : List (Ref sig .tc)) := by decide)
    (h4 : r ∉ hostOps2_W := by decide) (h5 : r ∉ ([main_v44] : List (Ref sig .tc)) := by decide) : Gen.V5 m outs c r = Gen.V1 m c r :=
  (Gen.V5_of m outs c r h5).trans <| (Gen.V4_of m outs c r h4).trans <| (Gen.V3_of m outs c r h3).trans (Gen.V2_of m outs c r h2)

theorem V6_of1 (r : Ref sig .tc) (h2 : r ∉ ([main_v26] : List (Ref sig .tc)) := by decide) (h3 : r ∉ ([main_v27] : List (Ref sig .tc)) := by decide)
    (h4 : r ∉ hostOps2_W := by decide) (h5 : r ∉ ([main_v44] : List (Ref sig .tc)) := by decide) (h6 : r ∉ hostOps3_W := by decide) :
    Gen.V6 m outs c r = Gen.V1 m c r :=
  (Gen.V6_of m outs c r h6).trans (V5_of1 m outs c r h2 h3 h4 h5)

theorem V5_v44 : Gen.V5 m outs c main_v44 = outs 5 main_v44 c :=
  Function.update_self _ _ _

theorem V5_v1 : (Gen.V5 m outs c main_v1 : (⟨S1600000, .i32⟩ : BufTy).Contents (Elt Ideal))
    = KTerm.srcVec (m ((c : Thread nD τ).loc main_arg1)) :=
  (V5_of1 m outs c main_v1).trans <| V1_v1 m c

theorem V5_v3 : (Gen.V5 m outs c main_v3 : (⟨S1600000, .i32⟩ : BufTy).Contents (Elt Ideal))
    = KTerm.dstVec (m ((c : Thread nD τ).loc main_arg1)) :=
  (V5_of1 m outs c main_v3).trans <| V1_v3 m c

theorem V5_arg8 : Gen.V5 m outs c main_arg8 = m ((c : Thread nD τ).loc main_arg8) :=
  (V5_of1 m outs c main_arg8).trans <| (Gen.V1_of m c main_arg8 (by decide)).trans rfl

theorem V5_arg10 : Gen.V5 m outs c main_arg10 = m ((c : Thread nD τ).loc main_arg10) :=
  (V5_of1 m outs c main_arg10).trans <| (Gen.V1_of m c main_arg10 (by decide)).trans rfl

theorem V5_arg11 : Gen.V5 m outs c main_arg11 = m ((c : Thread nD τ).loc main_arg11) :=
  (V5_of1 m outs c main_arg11).trans <| (Gen.V1_of m c main_arg11 (by decide)).trans rfl

theorem V6_v54 : (Gen.V6 m outs c main_v54 : (⟨S100000x128, .f32⟩ : BufTy).Contents (Elt Ideal))
    = KTerm.agg (outs 5 main_v44 c) (m ((c : Thread nD τ).loc main_arg1)) := by
  dsimp only [Gen.V6, Gen.hostOps3]
  after_results_simp
  rw [V5_v1 m outs c, V5_v3 m outs c, V5_v44 m outs c]
  rfl

theorem V6_v55 : (Gen.V6 m outs c main_v55 : (⟨S128x128, .f32⟩ : BufTy).Contents (Elt Ideal))
    = KTerm.tr (m ((c : Thread nD τ).loc main_arg8)) := by
  dsimp only [Gen.V6, Gen.hostOps3]
  after_results_simp
  rw [V5_arg8 m outs c]
  rfl

theorem V6_v56 : (Gen.V6 m outs c main_v56 : (⟨S128x128, .f32⟩ : BufTy).Contents (Elt Ideal))
    = KTerm.tr (m ((c : Thread nD τ).loc main_arg10)) := by
  dsimp only [Gen.V6, Gen.hostOps3]
  after_results_simp
  rw [V5_arg10 m outs c]
  rfl

theorem V6_v57 : (Gen.V6 m outs c main_v57 : (⟨S128x64, .f32⟩ : BufTy).Contents (Elt Ideal))
    = KTerm.trF (m ((c : Thread nD τ).loc main_arg11)) := by
  dsimp only [Gen.V6, Gen.hostOps3]
  after_results_simp
  rw [V5_arg11 m outs c]
  rfl

theorem V6_v13 : (Gen.V6 m outs c main_v13 : (⟨S100000x1, .f32⟩ : BufTy).Contents (Elt Ideal))
    = KTerm.degInv (m ((c : Thread nD τ).loc main_arg1)) :=
  (V6_of1 m outs c main_v13).trans <| V1_v13 m c

theorem V6_v44 : Gen.V6 m outs c main_v44 = outs 5 main_v44 c :=
  (Gen.V6_of m outs c main_v44 (by decide)).trans (V5_v44 m outs c)

theorem V6_v4 : (Gen.V6 m outs c main_v4 : (⟨S100000x1, .i32⟩ : BufTy).Contents (Elt Ideal))
    = KTerm.batchCol (m ((c : Thread nD τ).loc main_arg2)) :=
  (V6_of1 m outs c main_v4).trans <| V1_v4 m c

theorem V6_arg9 : Gen.V6 m outs c main_arg9 = m ((c : Thread nD τ).loc main_arg9) :=
  (V6_of1 m outs c main_arg9).trans <| (Gen.V1_of m c main_arg9 (by decide)).trans rfl

theorem V6_arg12 : Gen.V6 m outs c main_arg12 = m ((c : Thread nD τ).loc main_arg12) :=
  (V6_of1 m outs c main_arg12).trans <| (Gen.V1_of m c main_arg12 (by decide)).trans rfl

end Cert.KernelIdeal.Hand
-- ==== Proof.HostStages.lean ====
import proofs.«415688_j20925080666769_1_alg».proof.Proof.HostStagesA
import proofs.«415688_j20925080666769_1_alg».proof.Proof.HostStagesB
import proofs.«415688_j20925080666769_1_alg».proof.Proof.HostStagesC
-- ==== Proof.ValSpec.lean ====
import proofs.«415688_j20925080666769_1_alg».proof.Proof.Gen.KernelIdeal
import Idealize.ShloMosaic.PureOps.Ideal
import Idealize.ShloMosaic.Lib.ValueIdx

noncomputable section

namespace Cert.KernelIdeal.Hand

open Idealize.ShloMosaic Idealize.ShloMosaic.ValueIdx
open scoped BigOperators

def G0 (agg : S100000x128.Idx → EReal) (dinv : S100000x1.Idx → EReal) (x : S100000x128.Idx → EReal)
    (wlt : S128x128.Idx → EReal) (b : S128.Idx → EReal) (wrt : S128x128.Idx → EReal) (n : Fin 100000) (j : Fin 128) : EReal :=
  (∑ k : Fin 128, (agg (ix2 n k) * dinv (ix2 n (0 : Fin 1))) * wlt (ix2 k j)) + b (ix1 j)
    + ∑ k : Fin 128, x (ix2 n k) * wrt (ix2 k j)

def G1 (h : S100000x128.Idx → EReal) (r : Fin 2) (j : Fin 128) : EReal :=
  if r.val = 0 then ∑ n : Fin 100000, h (ix2 n j) else ∑ n : Fin 100000, h (ix2 n j) * h (ix2 n j)

def G2 (h : S100000x128.Idx → EReal) (sc sh : S128.Idx → EReal) (n : Fin 100000) (j : Fin 128) : EReal :=
  max (h (ix2 n j) * sc (ix1 j) + sh (ix1 j)) 0

def groupSum (bcol : S100000x1.Idx → BitVec 32) (Y : Fin 100000 → Fin 128 → EReal) (k : Fin 64) (d : Fin 128) : EReal :=
  ∑ n : Fin 100000, if bcol (ix2 n (0 : Fin 1)) = BitVec.ofNat 32 k.val then Y n d else 0

def groupCount (bcol : S100000x1.Idx → BitVec 32) (k : Fin 64) : EReal :=
  ∑ n : Fin 100000, if bcol (ix2 n (0 : Fin 1)) = BitVec.ofNat 32 k.val then (1 : EReal) else 0

def G3 (agg : S100000x128.Idx → EReal) (dinv : S100000x1.Idx → EReal) (h : S100000x128.Idx → EReal)
    (bcol : S100000x1.Idx → BitVec 32) (wlt : S128x128.Idx → EReal) (b : S128.Idx → EReal) (wrt : S128x128.Idx → EReal)
    (fwt : S128x64.Idx → EReal) (fb : S64.Idx → EReal) (k : Fin 64) (o : Fin 64) : EReal :=
  (∑ d : Fin 128, Ideal.div (groupSum bcol (G0 agg dinv h wlt b wrt) k d)
      (max (groupCount bcol k) (Ideal.ofBits .f32 0x3F800000#32)) * fwt (ix2 d o)) + fb (ix1 o)

end Cert.KernelIdeal.Hand

end
-- ==== Proof.KChain.lean ====
import proofs.«415688_j20925080666769_1_alg».proof.Proof.KTerm
import proofs.«415688_j20925080666769_1_alg».proof.Proof.ValSpec

noncomputable section

namespace Cert.KernelIdeal.Hand

open Idealize.ShloMosaic Idealize.SL.Sem
open Cert.KernelIdeal.Gen

variable (a0 : (⟨S100000x128, .f32⟩ : BufTy).Contents (Elt Ideal)) (a1 : (⟨S2x1600000, .i32⟩ : BufTy).Contents (Elt Ideal)) (a2 : (⟨S100000, .i32⟩ : BufTy).Contents (Elt Ideal))
  (a3 : (⟨S128x128, .f32⟩ : BufTy).Contents (Elt Ideal)) (a4 : (⟨S128, .f32⟩ : BufTy).Contents (Elt Ideal)) (a5 : (⟨S128x128, .f32⟩ : BufTy).Contents (Elt Ideal))
  (a6 a7 : (⟨S128, .f32⟩ : BufTy).Contents (Elt Ideal)) (a8 : (⟨S128x128, .f32⟩ : BufTy).Contents (Elt Ideal)) (a9 : (⟨S128, .f32⟩ : BufTy).Contents (Elt Ideal))
  (a10 : (⟨S128x128, .f32⟩ : BufTy).Contents (Elt Ideal)) (a11 : (⟨S64x128, .f32⟩ : BufTy).Contents (Elt Ideal)) (a12 : (⟨S64, .f32⟩ : BufTy).Contents (Elt Ideal))

def kO2 : (⟨S100000x128, .f32⟩ : BufTy).Contents (Elt Ideal) :=
  fun i => G0 (KTerm.agg a0 a1) (KTerm.degInv a1) a0 (KTerm.tr a3) a4 (KTerm.tr a5) (i 0) (i 1)

def kO3 : (⟨S2x128, .f32⟩ : BufTy).Contents (Elt Ideal) :=
  fun i => G1 (kO2 a0 a1 a3 a4 a5) (i 0) (i 1)

def kO5 : (⟨S100000x128, .f32⟩ : BufTy).Contents (Elt Ideal) :=
  fun i => G2 (kO2 a0 a1 a3 a4 a5) (KTerm.scale (kO3 a0 a1 a3 a4 a5) a6) (KTerm.shift (kO3 a0 a1 a3 a4 a5) a6 a7) (i 0) (i 1)

def kO7 : (⟨S64x64, .f32⟩ : BufTy).Contents (Elt Ideal) :=
  fun i => G3 (KTerm.agg (kO5 a0 a1 a3 a4 a5 a6 a7) a1) (KTerm.degInv a1) (kO5 a0 a1 a3 a4 a5 a6 a7) (KTerm.batchCol a2)
    (KTerm.tr a8) a9 (KTerm.tr a10) (KTerm.trF a11) a12 (i 0) (i 1)

end Cert.KernelIdeal.Hand

end
-- ==== Proof.KAssembleSteps.lean ====
import proofs.«415688_j20925080666769_1_alg».proof.Proof.FrameRun
import proofs.«415688_j20925080666769_1_alg».proof.Proof.HostStages
import proofs.«415688_j20925080666769_1_alg».proof.Proof.KChain
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Cert.KernelIdeal.Gen

variable (H0 : Half Ideal 0) (H1 : Half Ideal 1) (H2 : Half Ideal 2) (H3 : Half Ideal 3)
variable (m : (ℓ : Loc nD τ sig) → Buf (Elt Ideal) ℓ) (c : Dev nD)

theorem o2_step
    (harr : ∀ (n : Fin 100000) (j : Fin 128),
      (H0.dat (fun c b => X1 m c b) c).arrAt 6 cfg0.N (ix2 n j)
        = G0 (Gen.V1 m c main_v23) (Gen.V1 m c main_v13) (Gen.V1 m c main_arg0) (Gen.V1 m c main_v24)
            (Gen.V1 m c main_arg4) (Gen.V1 m c main_v25) n j) :
    o2 H0 m c = kO2 (m ((c : Thread nD τ).loc main_arg0)) (m ((c : Thread nD τ).loc main_arg1)) (m ((c : Thread nD τ).loc main_arg3)) (m ((c : Thread nD τ).loc main_arg4)) (m ((c : Thread nD τ).loc main_arg5)) := by
  funext (i : S100000x128.Idx)
  obtain ⟨n, j, rfl⟩ : ∃ (n : Fin 100000) (j : Fin 128), i = ix2 n j := ⟨i 0, i 1, eq_ix2 i⟩
  have h := harr n j
  rw [V1_v23 m c, V1_v13 m c, V1_arg0 m c, V1_v24 m c, V1_arg4 m c, V1_v25 m c] at h
  exact h

theorem o3_step
    (e2 : o2 H0 m c = kO2 (m ((c : Thread nD τ).loc main_arg0)) (m ((c : Thread nD τ).loc main_arg1)) (m ((c : Thread nD τ).loc main_arg3)) (m ((c : Thread nD τ).loc main_arg4)) (m ((c : Thread nD τ).loc main_arg5)))
    (harr : ∀ (r : Fin 2) (j : Fin 128),
      (H1.dat (fun c b => X2 H0 m c b) c).arrAt 1 cfg1.N (ix2 r j) = G1 (X2 H0 m c main_v26) r j) :
    o3 H0 H1 m c = kO3 (m ((c : Thread nD τ).loc main_arg0)) (m ((c : Thread nD τ).loc main_arg1)) (m ((c : Thread nD τ).loc main_arg3)) (m ((c : Thread nD τ).loc main_arg4)) (m ((c : Thread nD τ).loc main_arg5)) := by
  funext (i : S2x128.Idx)
  obtain ⟨r, j, rfl⟩ : ∃ (r : Fin 2) (j : Fin 128), i = ix2 r j := ⟨i 0, i 1, eq_ix2 i⟩
  have h := harr r j
  rw [show X2 H0 m c main_v26 = o2 H0 m c from Function.update_self _ _ _, e2] at h
  exact h

include H3 in
theorem o5_step
    (e2 : o2 H0 m c = kO2 (m ((c : Thread nD τ).loc main_arg0)) (m ((c : Thread nD τ).loc main_arg1)) (m ((c : Thread nD τ).loc main_arg3)) (m ((c : Thread nD τ).loc main_arg4)) (m ((c : Thread nD τ).loc main_arg5)))
    (e3 : o3 H0 H1 m c = kO3 (m ((c : Thread nD τ).loc main_arg0)) (m ((c : Thread nD τ).loc main_arg1)) (m ((c : Thread nD τ).loc main_arg3)) (m ((c : Thread nD τ).loc main_arg4)) (m ((c : Thread nD τ).loc main_arg5)))
    (harr : ∀ (n : Fin 100000) (j : Fin 128),
      (H2.dat (fun c b => X4 H0 H1 m c b) c).arrAt 3 cfg2.N (ix2 n j)
        = G2 (X4 H0 H1 m c main_v26) (X4 H0 H1 m c main_v41) (X4 H0 H1 m c main_v43) n j) :
    o5 H0 H1 H2 m c = kO5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  funext (i : S100000x128.Idx)
  obtain ⟨n, j, rfl⟩ : ∃ (n : Fin 100000) (j : Fin 128), i = ix2 n j := ⟨i 0, i 1, eq_ix2 i⟩
  have h := harr n j
  rw [← V4_eq H0 H1 H2 H3 m c] at h
  rw [V4_v26 m (outs H0 H1 H2 H3 m) c, V4_v41 m (outs H0 H1 H2 H3 m) c, V4_v43 m (outs H0 H1 H2 H3 m) c,
    outs_v26, outs_v27, e2, e3] at h
  exact h

theorem o7_step
    (e5 : o5 H0 H1 H2 m c = kO5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))
    (harr : ∀ (k o : Fin 64),
      (H3.dat (fun c b => X6 H0 H1 H2 m c b) c).arrAt 9 cfg3.N (ix2 k o)
        = G3 (X6 H0 H1 H2 m c main_v54) (X6 H0 H1 H2 m c main_v13) (X6 H0 H1 H2 m c main_v44) (X6 H0 H1 H2 m c main_v4)
            (X6 H0 H1 H2 m c main_v55) (X6 H0 H1 H2 m c main_arg9) (X6 H0 H1 H2 m c main_v56) (X6 H0 H1 H2 m c main_v57)
            (X6 H0 H1 H2 m c main_arg12) k o) :
    o7 H0 H1 H2 H3 m c = kO7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext (i : S64x64.Idx)
  obtain ⟨k, o, rfl⟩ : ∃ (k : Fin 64) (o : Fin 64), i = ix2 k o := ⟨i 0, i 1, eq_ix2 i⟩
  have h := harr k o
  rw [← V6_eq H0 H1 H2 H3 m c] at h
  rw [V6_v54 m (outs H0 H1 H2 H3 m) c, V6_v13 m (outs H0 H1 H2 H3 m) c, V6_v44 m (outs H0 H1 H2 H3 m) c,
    V6_v4 m (outs H0 H1 H2 H3 m) c, V6_v55 m (outs H0 H1 H2 H3 m) c, V6_arg9 m (outs H0 H1 H2 H3 m) c,
    V6_v56 m (outs H0 H1 H2 H3 m) c, V6_v57 m (outs H0 H1 H2 H3 m) c, V6_arg12 m (outs H0 H1 H2 H3 m) c,
    outs_v44, e5] at h
  exact h

end Cert.KernelIdeal.Hand
-- ==== Proof.Data.lean ====
import proofs.«415688_j20925080666769_1_alg».proof.Proof.Gen.KernelIdeal.Launch
import proofs.«415688_j20925080666769_1_alg».proof.Proof.Gen.KernelIdeal.Skeleton
import proofs.«415688_j20925080666769_1_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal.Gen

theorem hz2 : (![0, 0] : Fin 2 → Nat) = fun _ => 0 := funext fun a => by fin_cases a <;> rfl
theorem hz1 : (![0] : Fin 1 → Nat) = fun _ => 0 := funext fun a => by fin_cases a <;> rfl

variable {F : FTy → Type} [FloatOps F]

variable (V : (c : Dev nD) → (b : Ref sig .tc) → Buf (Elt F) ((c : Thread nD τ).loc b))

abbrev rA : Rect S5000x128 := Rect.unit (s := S5000x128) ![0, 0] S5000x128.size inb_S5000x128_S5000x128_0_0
abbrev rD : Rect S5000x1 := Rect.unit (s := S5000x1) ![0, 0] S5000x1.size inb_S5000x1_S5000x1_0_0
abbrev rW : Rect S128x128 := Rect.unit (s := S128x128) ![0, 0] S128x128.size inb_S128x128_S128x128_0_0
abbrev rB : Rect S128 := Rect.unit (s := S128) ![0] S128.size inb_S128_S128_0
abbrev rS : Rect S2x128 := Rect.unit (s := S2x128) ![0, 0] S2x128.size inb_S2x128_S2x128_0_0

abbrev rS0 : Rect S2x128 := Rect.unit (s := S2x128) ![0, 0] S1x128.size inb_S2x128_S1x128_0_0

abbrev rS1 : Rect S2x128 := Rect.unit (s := S2x128) ![1, 0] S1x128.size inb_S2x128_S1x128_1_0
abbrev rP : Rect S64x128 := Rect.unit (s := S64x128) ![0, 0] S64x128.size inb_S64x128_S64x128_0_0
abbrev rFw : Rect S128x64 := Rect.unit (s := S128x64) ![0, 0] S128x64.size inb_S128x64_S128x64_0_0
abbrev rFb : Rect S64 := Rect.unit (s := S64) ![0] S64.size inb_S64_S64_0
abbrev rO : Rect S64x64 := Rect.unit (s := S64x64) ![0, 0] S64x64.size inb_S64x64_S64x64_0_0

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_6 (x0 : Vec F S5000x128 .f32) (x1 : Vec F S5000x1 .f32) (x2 : Vec F S5000x128 .f32) (x3 : Vec F S128x128 .f32)
    (x4 : Vec F S128 .f32) (x5 : Vec F S128x128 .f32) : Vec F S5000x128 .f32 :=
  View.canon [⟨rA, k0_pay1 (View.ld x0 rA) (View.ld x1 rD) (View.ld x3 rW) (View.ld x4 rB) (View.ld x2 rA) (View.ld x5 rW)⟩]

def outAt0 (c : Dev nD) (t : Fin cfg0.N) : Vec F S5000x128 .f32 :=
  out0_6 (iblk0 V c 0 t) (iblk0 V c 1 t) (iblk0 V c 2 t) (iblk0 V c 3 t) (iblk0 V c 4 t) (iblk0 V c 5 t)

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def step1 (x0 : Vec F S5000x128 .f32) (o : Vec F S2x128 .f32) : Vec F S2x128 .f32 :=
  View.canon [⟨rS1, k1_pay4 (View.ld x0 rA) (View.ld o rS1)⟩, ⟨rS0, k1_pay3 (View.ld x0 rA) (View.ld o rS0)⟩]

def acc1 (c : Dev nD) : (t : ℕ) → t < cfg1.N → Vec F S2x128 .f32
  | 0, h => step1 (iblk1 V c 0 ⟨0, h⟩) (k1_pay1 (F := F))
  | t + 1, h => step1 (iblk1 V c 0 ⟨t + 1, h⟩) (acc1 c t (Nat.lt_of_succ_lt h))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S5000x128 .f32) (x1 : Vec F S128 .f32) (x2 : Vec F S128 .f32) : Vec F S5000x128 .f32 :=
  View.canon [⟨rA, k2_pay1 (View.ld x0 rA) (View.ld x1 rB) (View.ld x2 rB)⟩]

def outAt2 (c : Dev nD) (t : Fin cfg2.N) : Vec F S5000x128 .f32 :=
  out2_3 (iblk2 V c 0 t) (iblk2 V c 1 t) (iblk2 V c 2 t)

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def stepP3 (x0 : Vec F S5000x128 .f32) (x1 : Vec F S5000x1 .f32) (x2 : Vec F S5000x128 .f32) (x3 : Vec F S5000x1 .i32)
    (x4 : Vec F S128x128 .f32) (x5 : Vec F S128 .f32) (x6 : Vec F S128x128 .f32) (p : Vec F S64x128 .f32) : Vec F S64x128 .f32 :=
  View.canon [⟨rP, k3_pay1 (k3_pay8 (View.ld x0 rA) (View.ld x1 rD) (View.ld x4 rW) (View.ld x5 rB) (View.ld x2 rA) (View.ld x6 rW) (View.ld x3 rD) (View.ld p rP))⟩]

def stepC3 (x3 : Vec F S5000x1 .i32) (q : Vec F S64x128 .f32) : Vec F S64x128 .f32 :=
  View.canon [⟨rP, k3_pay2 (k3_pay7 (View.ld x3 rD)) (View.ld q rP)⟩]

def acc3 (c : Dev nD) : (t : ℕ) → t < cfg3.N → Vec F S64x128 .f32 × Vec F S64x128 .f32
  | 0, h => (stepP3 (iblk3 V c 0 ⟨0, h⟩) (iblk3 V c 1 ⟨0, h⟩) (iblk3 V c 2 ⟨0, h⟩) (iblk3 V c 3 ⟨0, h⟩) (iblk3 V c 4 ⟨0, h⟩)
              (iblk3 V c 5 ⟨0, h⟩) (iblk3 V c 6 ⟨0, h⟩) (k3_pay4 (F := F)),
            stepC3 (iblk3 V c 3 ⟨0, h⟩) (k3_pay5 (F := F)))
  | t + 1, h => (stepP3 (iblk3 V c 0 ⟨t + 1, h⟩) (iblk3 V c 1 ⟨t + 1, h⟩) (iblk3 V c 2 ⟨t + 1, h⟩) (iblk3 V c 3 ⟨t + 1, h⟩)
              (iblk3 V c 4 ⟨t + 1, h⟩) (iblk3 V c 5 ⟨t + 1, h⟩) (iblk3 V c 6 ⟨t + 1, h⟩) (acc3 c t (Nat.lt_of_succ_lt h)).1,
            stepC3 (iblk3 V c 3 ⟨t + 1, h⟩) (acc3 c t (Nat.lt_of_succ_lt h)).2)

def out3_9 (p q : Vec F S64x128 .f32) (x7 : Vec F S128x64 .f32) (x8 : Vec F S64 .f32) : Vec F S64x64 .f32 :=
  View.canon [⟨rO, k3_pay3 (View.ld p rP) (View.ld q rP) (View.ld x7 rFw) (View.ld x8 rFb)⟩]

def outAt3 (c : Dev nD) (t : Fin cfg3.N) : Vec F S64x64 .f32 :=
  out3_9 (acc3 V c t.val t.isLt).1 (acc3 V c t.val t.isLt).2 (iblk3 V c 7 t) (iblk3 V c 8 t)

end Cert.KernelIdeal.Hand

end
-- ==== Proof.FrameR0.lean ====
import proofs.«415688_j20925080666769_1_alg».proof.Proof.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover0_6 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in

theorem sound_kernel0 (c : Dev nD) (E : Set ℕ) (i : grid0.Coords)
    (arg1 : Memref sig .tc .vmem S5000x128 .f32) (harg1 : arg1.IsWhole) (arg2 : Memref sig .tc .vmem S5000x1 .f32) (harg2 : arg2.IsWhole)
    (arg3 : Memref sig .tc .vmem S5000x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S128x128 .f32) (harg6 : arg6.IsWhole)
    (arg7 : Memref sig .tc .vmem S5000x128 .f32) (harg7 : arg7.IsWhole)
    (x0 : Vec F S5000x128 .f32) (x1 : Vec F S5000x1 .f32) (x2 : Vec F S5000x128 .f32) (x3 : Vec F S128x128 .f32)
    (x4 : Vec F S128 .f32) (x5 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__combine_kernel i arg1 harg1 arg2 harg2 arg3 harg3 arg4 harg4 arg5 harg5 arg6 harg6 arg7 harg7) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = outAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  iframe H0 H1 H2 H3 H4 H5
  isplitl [H6]; · iexists _; iexact H6
  iintro ⟨H0, H1, H2, H3, H4, H5, H6⟩
  iframe HΦ Ho H0 H1 H2 H3 H4 H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameR1.lean ====
import proofs.«415688_j20925080666769_1_alg».proof.Proof.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

theorem zero_off1 : (![0, 0] : Fin 2 → Nat) = fun _ => 0 := funext fun a => by fin_cases a <;> rfl

theorem canon_append_of_cover1 {Val : EltTy → Type} [∀ e, Nonempty (Val e)] {s : Shape} {e : EltTy} (L' : List (View.Piece Val s e)) :
    ∀ (L : List (View.Piece Val s e)) (y : s.Idx), (∃ p ∈ L, y ∈ p.1.set) → View.canon (L ++ L') y = View.canon L y
  | [], y, h => by obtain ⟨_, hm, _⟩ := h; exact absurd hm List.not_mem_nil
  | p :: L, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p L hy]
      exact canon_append_of_cover1 L' L y hL

theorem cover1_1 (p1 p0 : Vec F S1x128 .f32) (y : S2x128.Idx) :
    ∃ pc ∈ ([⟨rS1, p1⟩, ⟨rS0, p0⟩] : List (View.Piece (Elt F) S2x128 .f32)), y ∈ pc.1.set :=
  View.cover_of_tiled [⟨rS1, p1⟩, ⟨rS0, p0⟩] S1x128.size (by rfl) y

theorem rows_disjoint1 : Disjoint (rS0).set (rS1).toLoadRect.set :=
  LoadRect.disjoint_of_separated (rS0).toLoadRect (rS1).toLoadRect 0 (.inl (.inr (by decide)))

theorem cover1_w (w : Vec F S2x128 .f32) (y : S2x128.Idx) :
    ∃ pc ∈ ([⟨rS, w⟩] : List (View.Piece (Elt F) S2x128 .f32)), y ∈ pc.1.set :=
  ⟨⟨rS, w⟩, List.mem_singleton_self _, View.mem_set_unit_zero (S := S2x128) zero_off1 inb_S2x128_S2x128_0_0 y⟩

theorem readCov1_row0 {sig' : RefSig} {κ : Kind} {sp : Space} (v : View sig' κ sp S2x128 .f32) (w : Vec F S2x128 .f32) :
    v.readCov [(⟨rS, w⟩ : View.Piece (Elt F) S2x128 .f32)] (rS0).toLoadRect = View.ld w rS0 :=
  (View.readCov_eq_canon_ld v [⟨rS, w⟩] rS0 (cover1_w w)).trans
    (congrArg (fun X => View.ld X rS0) (View.canon_unit_zero (S := S2x128) zero_off1 inb_S2x128_S2x128_0_0 w))

theorem readCov1_row1 {sig' : RefSig} {κ : Kind} {sp : Space} (v : View sig' κ sp S2x128 .f32) (w0 : Vec F S1x128 .f32) (w : Vec F S2x128 .f32) :
    v.readCov [(⟨rS0, w0⟩ : View.Piece (Elt F) S2x128 .f32), ⟨rS, w⟩] (rS1).toLoadRect = View.ld w rS1 :=
  (View.readCov_cons_of_disjoint v ⟨rS0, w0⟩ [⟨rS, w⟩] (rS1).toLoadRect rows_disjoint1).trans
    ((View.readCov_eq_canon_ld v [⟨rS, w⟩] rS1 (cover1_w w)).trans
      (congrArg (fun X => View.ld X rS1) (View.canon_unit_zero (S := S2x128) zero_off1 inb_S2x128_S2x128_0_0 w)))

set_option maxHeartbeats 1000000 in

theorem sound_kernel1_first (c : Dev nD) (E : Set ℕ) (i : grid1.Coords) (hc0 : cond1_0 i)
    (arg1 : Memref sig .tc .vmem S5000x128 .f32) (harg1 : arg1.IsWhole) (arg2 : Memref sig .tc .vmem S2x128 .f32) (harg2 : arg2.IsWhole)
    (x0 : Vec F S5000x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (step1 x0 (k1_pay1 (F := F)))) -∗ K ⟨⟩))
      ⊢ wp frame (wpE (defs₀ (F := F)) Variants.none c none) E (cc1__bn_stats_kernel i arg1 harg1 arg2 harg2) K := by
  simp only [cc1__bn_stats_kernel_eq_skeleton]; unfold cc1__bn_stats_kernel_skel
  unfold owns
  iintro ⟨⟨%f0, %hf0, H0⟩, ⟨%d1, %f1, -, H1⟩, Hk⟩
  subst hf0
  sl_exec (disch := first | exact hc0)
  sl_step
  iapply Hk
  isplitl [H0]
  · iexists f0; isplitr; · ipureintro; rfl
    iexact H0
  iexists _; isplitr
  swap; · iexact H1
  ipureintro
  sl_unfold_words
  rw [readCov1_row1, readCov1_row0, View.read_writes_eq_canon _ _ _ (fun y => by
    obtain ⟨pc, hm, hy⟩ := cover1_1 (F := F) _ _ y
    exact ⟨pc, List.mem_append_left _ hm, hy⟩)]
  funext y
  exact canon_append_of_cover1 [_] [_, _] y (cover1_1 _ _ y)

set_option maxHeartbeats 1000000 in

theorem sound_kernel1_later (c : Dev nD) (E : Set ℕ) (i : grid1.Coords) (hc0 : ¬cond1_0 i)
    (arg1 : Memref sig .tc .vmem S5000x128 .f32) (harg1 : arg1.IsWhole) (arg2 : Memref sig .tc .vmem S2x128 .f32) (harg2 : arg2.IsWhole)
    (x0 : Vec F S5000x128 .f32) (o : Vec F S2x128 .f32) (K : PUnit → sProp 𝕄) :
    iprop(owns (c : Thread nD τ) arg1 fullShare x0 ∗ owns (c : Thread nD τ) arg2 fullShare o
        ∗ (iprop(owns (c : Thread nD τ) arg1 fullShare x0 ∗ owns (c : Thread nD τ) arg2 fullShare (step1 x0 o)) -∗ K ⟨⟩))
      ⊢ wp frame (wpE (defs₀ (F := F)) Variants.none c none) E (cc1__bn_stats_kernel i arg1 harg1 arg2 harg2) K := by
  simp only [cc1__bn_stats_kernel_eq_skeleton]; unfold cc1__bn_stats_kernel_skel
  unfold owns
  iintro ⟨⟨%f0, %hf0, H0⟩, ⟨%f1, %hf1, H1⟩, Hk⟩
  subst hf0; subst hf1
  sl_exec (disch := first | exact hc0)
  sl_step
  iapply Hk
  isplitl [H0]
  · iexists f0; isplitr; · ipureintro; rfl
    iexact H0
  iexists _; isplitr
  swap; · iexact H1
  ipureintro
  sl_unfold_words
  exact View.read_writes_eq_canon _ _ _ (cover1_1 _ _)

theorem acc1_first (c : Dev nD) (t : Fin cfg1.N) (h0 : t.val = 0) :
    acc1 V c t.val t.isLt = step1 (iblk1 V c 0 t) (k1_pay1 (F := F)) := by
  obtain ⟨n, hn⟩ := t
  cases n with
  | zero => rfl
  | succ n => exact absurd h0 (Nat.succ_ne_zero n)

theorem acc1_later (c : Dev nD) (t : Fin cfg1.N) (h0 : t.val ≠ 0) :
    acc1 V c t.val t.isLt = step1 (iblk1 V c 0 t) (acc1 V c (t.val - 1) (Nat.lt_of_le_of_lt (Nat.sub_le _ _) t.isLt)) := by
  obtain ⟨n, hn⟩ := t
  cases n with
  | zero => exact absurd rfl h0
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = acc1 V c t.val t.isLt := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem before1_1_first (c : Dev nD) (t : Fin cfg1.N) (h0 : t.val = 0) (d) : (dat1 V c).before 1 t d = d :=
  (dat1 V c).before_out_reset 1 rfl t (.inl h0) d

theorem before1_1_later (c : Dev nD) (t : Fin cfg1.N) (h0 : t.val ≠ 0) (d) :
    (dat1 V c).before 1 t d = acc1 V c (t.val - 1) (Nat.lt_of_le_of_lt (Nat.sub_le _ _) t.isLt) := by
  have hN : t.val < 20 := lt_of_lt_of_eq t.isLt (show cfg1.N = 20 from N_1)
  rw [Dat.before_out_kept _ 1 rfl t h0 (Bool.eq_false_iff.mpr fun h => by have := (flush1_1 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 20 := lt_of_lt_of_eq t.isLt (show cfg1.N = 20 from N_1)
  by_cases h0 : t.val = 0
  · rw [acc1_first V c t h0]
    simp only [before1_1_first V c t h0]
    iintro ⟨HΦ, Ho, ⟨%d0, H0⟩, ⟨%d1, H1⟩⟩
    iapply (sound_kernel1_first c Set.univ (grid1.coords t) ((hcond1_0 t).mpr (by omega)) _ _ _ _ (iblk1 V c 0 t) _)
    isplitl [H0]; · iexact H0
    isplitl [H1]; · iexists _; iexact H1
    iintro ⟨H0, H1⟩
    iframe HΦ Ho H0
    iexact H1
  · rw [acc1_later V c t h0]
    simp only [before1_1_later V c t h0]
    iintro ⟨HΦ, Ho, ⟨%d0, H0⟩, ⟨%d1, H1⟩⟩
    iapply (sound_kernel1_later c Set.univ (grid1.coords t) (fun h => h0 (by have := (hcond1_0 t).mp h; omega)) _ _ _ _ (iblk1 V c 0 t)
      (acc1 V c (t.val - 1) (Nat.lt_of_le_of_lt (Nat.sub_le _ _) t.isLt)) _)
    iframe H0 H1
    iintro ⟨H0, H1⟩
    iframe HΦ Ho H0
    iexact H1

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameR2.lean ====
import proofs.«415688_j20925080666769_1_alg».proof.Proof.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover2_3 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in

theorem sound_kernel2 (c : Dev nD) (E : Set ℕ) (i : grid2.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S5000x128 .f32) (harg4 : arg4.IsWhole)
    (x0 : Vec F S5000x128 .f32) (x1 : Vec F S128 .f32) (x2 : Vec F S128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out2_3 x0 x1 x2)) -∗ K ⟨⟩))
      ⊢ wp frame (wpE (defs₀ (F := F)) Variants.none c none) E
          (cc2__bn_relu_kernel i arg1 harg1 arg2 harg2 arg3 harg3 arg4 harg4) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _
    (iblk2 V c 0 t) (iblk2 V c 1 t) (iblk2 V c 2 t) _)
  iframe H0 H1 H2
  isplitl [H3]; · iexists _; iexact H3
  iintro ⟨H0, H1, H2, H3⟩
  iframe HΦ Ho H0 H1 H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameR3a.lean ====
import proofs.«415688_j20925080666769_1_alg».proof.Proof.Data
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev cond3_1 (i : grid3.Coords) : Prop := (Scalar.cmpi .ne (Scalar.extui (Scalar.cmpi .eq (BitVec.ofNat 32 (i 0).val) 0#32)) 0#32) = 1#1

abbrev cond3_2 (i : grid3.Coords) : Prop := k3_cond2 i = 1#1

theorem hcond3_1 : ∀ t : Fin cfg3.N, cond3_1 (grid3.coords t) ↔ t.val = 0 :=
  (by decide +kernel : ∀ t : Fin grid3.N, cond3_1 (grid3.coords t) ↔ t.val = 0)

theorem hcond3_2 : ∀ t : Fin cfg3.N, cond3_2 (grid3.coords t) ↔ t.val = 19 :=
  (by decide +kernel : ∀ t : Fin grid3.N, cond3_2 (grid3.coords t) ↔ t.val = 19)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
theorem liveAt3_7 : ∀ t : Fin cfg3.N, cfg3.idle 7 (grid3.coords t) = false := by decide +kernel
theorem liveAt3_8 : ∀ t : Fin cfg3.N, cfg3.idle 8 (grid3.coords t) = false := by decide +kernel

theorem idleAt3_9 : ∀ t : Fin cfg3.N, ¬cond3_2 (grid3.coords t) → cfg3.idle 9 (grid3.coords t) = true := by decide +kernel

theorem noFlush3_9 : ∀ t : Fin cfg3.N, ¬cond3_2 (grid3.coords t) → (cfg3.win 9).flush t = false := by decide +kernel

theorem liveAt3_9 : ∀ t : Fin cfg3.N, cond3_2 (grid3.coords t) → cfg3.idle 9 (grid3.coords t) = false := by decide +kernel

abbrev sc3_0 : Memref sig .tc .vmem S64x128 .f32 := Memref.whole cc3_scratch0

abbrev sc3_1 : Memref sig .tc .vmem S64x128 .f32 := Memref.whole cc3_scratch1

abbrev Rest3 (c : Dev nD) : sProp 𝕄 :=
  Pipeline.scopedRestBut (Ix := Unit) (Name := ℕ) (U := UR sig nD τ) (Lvl := ℕ) (Val := Elt F) spec3 c [cc3_scratch0, cc3_scratch1]

theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f))
          ∗ Rest3 (F := F) c) :=
  Pipeline.scopedRest_split_of_list spec3 c [cc3_scratch0, cc3_scratch1] (by decide) (by decide)

theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d)) ∗ Rest3 (F := F) c) ∗ (∃ r, prngReg c r)) := by
  unfold Pipeline.ΦA; rw [scopedRest3_split]; simp only [sc3_0, sc3_1, owns_whole]; try rfl

set_option maxHeartbeats 4000000 in

theorem sound_kernel3_A (c : Dev nD) (E : Set ℕ) (i : grid3.Coords) (hc1 : cond3_1 i) (hc2 : ¬cond3_2 i) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S5000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64x128 .f32) (harg11 : arg11.IsWhole) (arg12 : Memref sig .tc .vmem S64x128 .f32) (harg12 : arg12.IsWhole)
    (x0 : Vec F S5000x128 .f32) (x1 : Vec F S5000x1 .f32) (x2 : Vec F S5000x128 .f32) (x3 : Vec F S5000x1 .i32) (x4 : Vec F S128x128 .f32) (x5 : Vec F S128 .f32) (x6 : Vec F S128x128 .f32) (x7 : Vec F S128x64 .f32) (x8 : Vec F S64 .f32) (x9 : Vec F S64x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (stepP3 x0 x1 x2 x3 x4 x5 x6 (k3_pay4 (F := F))) ∗ owns (c : Thread nD τ) arg12 fullShare (stepC3 x3 (k3_pay5 (F := F)))) -∗ K ⟨⟩))
      ⊢ wp frame (wpE (defs₀ (F := F)) Variants.none c none) E (cc3__combine_pool_kernel i arg1 harg1 arg2 harg2 arg3 harg3 arg4 harg4 arg5 harg5 arg6 harg6 arg7 harg7 arg8 harg8 arg9 harg9 arg10 harg10 arg11 harg11 arg12 harg12) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dp, %fp, -, HP⟩, ⟨%dq, %fq, -, HQ⟩, Hk⟩
  subst hf0 hf1 hf2 hf3 hf4 hf5 hf6 hf7 hf8 hf9
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HP]
  · iexists _; isplitr
    swap; · iexact HP
    ipureintro
    sl_unfold_words
    rw [View.read_writes_eq_canon _ _ _ (fun y => ⟨_, List.mem_cons_self, View.mem_set_unit_zero hz2 inb_S64x128_S64x128_0_0 y⟩)]
    unfold stepP3
    simp only [View.readAt_eq_ld, View.readCov_unit_zero (S := S64x128) _ hz2, View.canon_cons_unit_zero (S := S64x128) hz2, View.ld_unit_zero (S := S64x128) hz2] <;> rfl
  iexists _; isplitr
  swap; · iexact HQ
  ipureintro
  sl_unfold_words
  rw [View.read_writes_eq_canon _ _ _ (fun y => ⟨_, List.mem_cons_self, View.mem_set_unit_zero hz2 inb_S64x128_S64x128_0_0 y⟩)]
  unfold stepC3
  simp only [View.readAt_eq_ld, View.readCov_unit_zero (S := S64x128) _ hz2, View.canon_cons_unit_zero (S := S64x128) hz2, View.ld_unit_zero (S := S64x128) hz2] <;> rfl

end Cert.KernelIdeal.Hand

end
-- ==== Proof.FrameR3b.lean ====
import proofs.«415688_j20925080666769_1_alg».proof.Proof.FrameR3a
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in

theorem sound_kernel3_B (c : Dev nD) (E : Set ℕ) (i : grid3.Coords) (hc1 : ¬cond3_1 i) (hc2 : ¬cond3_2 i) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S5000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64x128 .f32) (harg11 : arg11.IsWhole) (arg12 : Memref sig .tc .vmem S64x128 .f32) (harg12 : arg12.IsWhole)
    (x0 : Vec F S5000x128 .f32) (x1 : Vec F S5000x1 .f32) (x2 : Vec F S5000x128 .f32) (x3 : Vec F S5000x1 .i32) (x4 : Vec F S128x128 .f32) (x5 : Vec F S128 .f32) (x6 : Vec F S128x128 .f32) (x7 : Vec F S128x64 .f32) (x8 : Vec F S64 .f32) (x9 : Vec F S64x64 .f32) (p q : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare p ∗ owns (c : Thread nD τ) arg12 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (stepP3 x0 x1 x2 x3 x4 x5 x6 p) ∗ owns (c : Thread nD τ) arg12 fullShare (stepC3 x3 q)) -∗ K ⟨⟩))
      ⊢ wp frame (wpE (defs₀ (F := F)) Variants.none c none) E (cc3__combine_pool_kernel i arg1 harg1 arg2 harg2 arg3 harg3 arg4 harg4 arg5 harg5 arg6 harg6 arg7 harg7 arg8 harg8 arg9 harg9 arg10 harg10 arg11 harg11 arg12 harg12) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fp, %hfp, HP⟩, ⟨%fq, %hfq, HQ⟩, Hk⟩
  subst hf0 hf1 hf2 hf3 hf4 hf5 hf6 hf7 hf8 hf9 hfp hfq
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [HP]
  · iexists _; isplitr
    swap; · iexact HP
    ipureintro
    sl_unfold_words
    rw [View.read_writes_eq_canon _ _ _ (fun y => ⟨_, List.mem_cons_self, View.mem_set_unit_zero hz2 inb_S64x128_S64x128_0_0 y⟩)]
    unfold stepP3
    simp only [View.readAt_eq_ld, View.readCov_unit_zero (S := S64x128) _ hz2, View.canon_cons_unit_zero (S := S64x128) hz2, View.ld_unit_zero (S := S64x128) hz2] <;> rfl
  iexists _; isplitr
  swap; · iexact HQ
  ipureintro
  sl_unfold_words
  rw [View.read_writes_eq_canon _ _ _ (fun y => ⟨_, List.mem_cons_self, View.mem_set_unit_zero hz2 inb_S64x128_S64x128_0_0 y⟩)]
  unfold stepC3
  simp only [View.readAt_eq_ld, View.readCov_unit_zero (S := S64x128) _ hz2, View.canon_cons_unit_zero (S := S64x128) hz2, View.ld_unit_zero (S := S64x128) hz2] <;> rfl

end Cert.KernelIdeal.Hand

end
-- ==== Proof.FrameR3c.lean ====
import proofs.«415688_j20925080666769_1_alg».proof.Proof.FrameR3b
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 4000000 in

theorem sound_kernel3_C (c : Dev nD) (E : Set ℕ) (i : grid3.Coords) (hc1 : ¬cond3_1 i) (hc2 : cond3_2 i) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S5000x1 .i32) (harg4 : arg4.IsWhole) (arg5 : Memref sig .tc .vmem S128x128 .f32) (harg5 : arg5.IsWhole) (arg6 : Memref sig .tc .vmem S128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S64 .f32) (harg9 : arg9.IsWhole) (arg10 : Memref sig .tc .vmem S64x64 .f32) (harg10 : arg10.IsWhole) (arg11 : Memref sig .tc .vmem S64x128 .f32) (harg11 : arg11.IsWhole) (arg12 : Memref sig .tc .vmem S64x128 .f32) (harg12 : arg12.IsWhole)
    (x0 : Vec F S5000x128 .f32) (x1 : Vec F S5000x1 .f32) (x2 : Vec F S5000x128 .f32) (x3 : Vec F S5000x1 .i32) (x4 : Vec F S128x128 .f32) (x5 : Vec F S128 .f32) (x6 : Vec F S128x128 .f32) (x7 : Vec F S128x64 .f32) (x8 : Vec F S64 .f32) (p q : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare p ∗ owns (c : Thread nD τ) arg12 fullShare q
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 (stepP3 x0 x1 x2 x3 x4 x5 x6 p) (stepC3 x3 q) x7 x8)
            ∗ owns (c : Thread nD τ) arg11 fullShare (stepP3 x0 x1 x2 x3 x4 x5 x6 p) ∗ owns (c : Thread nD τ) arg12 fullShare (stepC3 x3 q)) -∗ K ⟨⟩))
      ⊢ wp frame (wpE (defs₀ (F := F)) Variants.none c none) E (cc3__combine_pool_kernel i arg1 harg1 arg2 harg2 arg3 harg3 arg4 harg4 arg5 harg5 arg6 harg6 arg7 harg7 arg8 harg8 arg9 harg9 arg10 harg10 arg11 harg11 arg12 harg12) K := by
  simp only [cc3__combine_pool_kernel_eq_skeleton]; unfold cc3__combine_pool_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fp, %hfp, HP⟩, ⟨%fq, %hfq, HQ⟩, Hk⟩
  subst hf0 hf1 hf2 hf3 hf4 hf5 hf6 hf7 hf8 hfp hfq
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [View.read_writes_eq_canon _ _ _ (fun y => ⟨_, List.mem_cons_self, View.mem_set_unit_zero hz2 inb_S64x64_S64x64_0_0 y⟩)]
    unfold out3_9 stepP3 stepC3
    simp only [View.readAt_eq_ld, View.readCov_unit_zero (S := S64x128) _ hz2, View.canon_cons_unit_zero (S := S64x128) hz2, View.ld_unit_zero (S := S64x128) hz2] <;> rfl
  isplitl [HP]
  · iexists _; isplitr
    swap; · iexact HP
    ipureintro
    sl_unfold_words
    rw [View.read_writes_eq_canon _ _ _ (fun y => ⟨_, List.mem_cons_self, View.mem_set_unit_zero hz2 inb_S64x128_S64x128_0_0 y⟩)]
    unfold stepP3
    simp only [View.readAt_eq_ld, View.readCov_unit_zero (S := S64x128) _ hz2, View.canon_cons_unit_zero (S := S64x128) hz2, View.ld_unit_zero (S := S64x128) hz2] <;> rfl
  iexists _; isplitr
  swap; · iexact HQ
  ipureintro
  sl_unfold_words
  rw [View.read_writes_eq_canon _ _ _ (fun y => ⟨_, List.mem_cons_self, View.mem_set_unit_zero hz2 inb_S64x128_S64x128_0_0 y⟩)]
  unfold stepC3
  simp only [View.readAt_eq_ld, View.readCov_unit_zero (S := S64x128) _ hz2, View.canon_cons_unit_zero (S := S64x128) hz2, View.ld_unit_zero (S := S64x128) hz2] <;> rfl

end Cert.KernelIdeal.Hand

end
-- ==== Proof.FrameR3.lean ====
import proofs.«415688_j20925080666769_1_alg».proof.Proof.FrameR3c
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem acc3_zero_1 (c : Dev nD) (t : Fin cfg3.N) (h0 : t.val = 0) :
    (acc3 V c t.val t.isLt).1 = stepP3 (iblk3 V c 0 t) (iblk3 V c 1 t) (iblk3 V c 2 t) (iblk3 V c 3 t) (iblk3 V c 4 t) (iblk3 V c 5 t) (iblk3 V c 6 t) (k3_pay4 (F := F)) := by
  obtain ⟨n, hn⟩ := t
  cases n with
  | zero => exact rfl
  | succ n => exact absurd h0 (Nat.succ_ne_zero n)
theorem acc3_zero_2 (c : Dev nD) (t : Fin cfg3.N) (h0 : t.val = 0) :
    (acc3 V c t.val t.isLt).2 = stepC3 (iblk3 V c 3 t) (k3_pay5 (F := F)) := by
  obtain ⟨n, hn⟩ := t
  cases n with
  | zero => exact rfl
  | succ n => exact absurd h0 (Nat.succ_ne_zero n)

theorem acc3_pos_1 (c : Dev nD) (t : Fin cfg3.N) (h0 : t.val ≠ 0) :
    (acc3 V c t.val t.isLt).1 = stepP3 (iblk3 V c 0 t) (iblk3 V c 1 t) (iblk3 V c 2 t) (iblk3 V c 3 t) (iblk3 V c 4 t) (iblk3 V c 5 t) (iblk3 V c 6 t)
      (acc3 V c (t.val - 1) (Nat.lt_of_le_of_lt (Nat.sub_le _ _) t.isLt)).1 := by
  obtain ⟨n, hn⟩ := t
  cases n with
  | zero => exact absurd rfl h0
  | succ n => exact rfl
theorem acc3_pos_2 (c : Dev nD) (t : Fin cfg3.N) (h0 : t.val ≠ 0) :
    (acc3 V c t.val t.isLt).2 = stepC3 (iblk3 V c 3 t) (acc3 V c (t.val - 1) (Nat.lt_of_le_of_lt (Nat.sub_le _ _) t.isLt)).2 := by
  obtain ⟨n, hn⟩ := t
  cases n with
  | zero => exact absurd rfl h0
  | succ n => exact rfl

def PhiS3 (c : Dev nD) : (n : ℕ) → n ≤ cfg3.N → sProp 𝕄
  | 0, _ => Pipeline.ΦA spec3 c
  | n + 1, hn => iprop(iprop(iprop(owns (c : Thread nD τ) sc3_0 fullShare (acc3 V c n hn).1 ∗ owns (c : Thread nD τ) sc3_1 fullShare (acc3 V c n hn).2) ∗ Rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) sc3_0 fullShare (acc3 V c n hn).1 ∗ owns (c : Thread nD τ) sc3_1 fullShare (acc3 V c n hn).2) ∗ Rest3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) sc3_0 fullShare (acc3 V c (n - 1) (by omega)).1 ∗ owns (c : Thread nD τ) sc3_1 fullShare (acc3 V c (n - 1) (by omega)).2) ∗ Rest3 (F := F) c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = outAt3 V c t := by dsimp only [dat3]

theorem Phi3_zero (c : Dev nD) : (dat3 V c).Φ 0 = Pipeline.ΦA spec3 c := rfl

theorem PhiS3_castSucc (c : Dev nD) (t : Fin cfg3.N) :
    (dat3 V c).Φ t.castSucc = PhiS3 V c t.val (Nat.le_of_lt t.isLt) := by
  dsimp only [dat3]; simp only [Fin.coe_castSucc]

theorem Phi3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitr [Hg]
  swap; · iexact Hg
  isplitr [HR]
  swap; · iexact HR
  isplitl [HS0]
  · iexists _; iexact HS0
  iexists _; iexact HS1

theorem Phi3_last (c : Dev nD) : (dat3 V c).Φ (Fin.last _) ⊢ Pipeline.ΦA spec3 c :=
  Phi3_out V c _ (by rw [Fin.val_last]; have : cfg3.N = 20 := N_3; omega)

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = iblk3 V c 6 t :=
  ((dat3 V c).before_in_eq_fetched 6 rfl (fun _ => rfl) (fun _ _ _ => rfl) (fun _ => rfl) t d).trans rfl
theorem before3_7 (c : Dev nD) (t : Fin cfg3.N) (d) : (dat3 V c).before 7 t d = iblk3 V c 7 t :=
  ((dat3 V c).before_in_eq_fetched 7 rfl (fun _ => rfl) (fun _ _ _ => rfl) (fun _ => rfl) t d).trans rfl
theorem before3_8 (c : Dev nD) (t : Fin cfg3.N) (d) : (dat3 V c).before 8 t d = iblk3 V c 8 t :=
  ((dat3 V c).before_in_eq_fetched 8 rfl (fun _ => rfl) (fun _ _ _ => rfl) (fun _ => rfl) t d).trans rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  rw [show (dat3 V c).leavesExact 5 t = owns (c : Thread nD τ) (st3_5 t) fullShare ((dat3 V c).after 5 t) from by
    unfold Dat.leavesExact; rw [liveAt3_5 t], after3_5]
  rw [show (dat3 V c).leavesExact 6 t = owns (c : Thread nD τ) (st3_6 t) fullShare ((dat3 V c).after 6 t) from by
    unfold Dat.leavesExact; rw [liveAt3_6 t], after3_6]
  rw [show (dat3 V c).leavesExact 7 t = owns (c : Thread nD τ) (st3_7 t) fullShare ((dat3 V c).after 7 t) from by
    unfold Dat.leavesExact; rw [liveAt3_7 t], after3_7]
  rw [show (dat3 V c).leavesExact 8 t = owns (c : Thread nD τ) (st3_8 t) fullShare ((dat3 V c).after 8 t) from by
    unfold Dat.leavesExact; rw [liveAt3_8 t], after3_8]
  by_cases h0 : t.val = 0
  · have hc1 : cond3_1 (grid3.coords t) := (hcond3_1 t).mpr h0
    have hc2 : ¬cond3_2 (grid3.coords t) := fun h => by have := (hcond3_2 t).mp h; omega
    rw [Dat.leavesExact_idle (dat3 V c) 9 t (idleAt3_9 t hc2) (noFlush3_9 t hc2)]
    rw [acc3_zero_1 V c t h0, acc3_zero_2 V c t h0]
    rw [PhiS3_castSucc V c t, PhiS3_zero V c _ _ h0, PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel3_A c Set.univ (grid3.coords t) hc1 hc2 _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t d9) _)
    iframe H0 H1 H2 H3 H4 H5 H6 H7 H8 H9 HS0 HS1
    iintro ⟨H0, H1, H2, H3, H4, H5, H6, H7, H8, H9, HS0, HS1⟩
    iframe HS0 HS1 HR Hg Ho H0 H1 H2 H3 H4 H5 H6 H7 H8
    iexists _; iexact H9
  · by_cases h19 : t.val = 19
    · have hc1 : ¬cond3_1 (grid3.coords t) := fun h => h0 ((hcond3_1 t).mp h)
      have hc2 : cond3_2 (grid3.coords t) := (hcond3_2 t).mpr h19
      rw [show (dat3 V c).leavesExact 9 t = owns (c : Thread nD τ) (st3_9 t) fullShare ((dat3 V c).after 9 t) from by
        unfold Dat.leavesExact; rw [liveAt3_9 t hc2], after3_9]
      unfold outAt3
      rw [acc3_pos_1 V c t h0, acc3_pos_2 V c t h0]
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel3_C c Set.univ (grid3.coords t) hc1 hc2 _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (acc3 V c (t.val - 1) (Nat.lt_of_le_of_lt (Nat.sub_le _ _) t.isLt)).1 (acc3 V c (t.val - 1) (Nat.lt_of_le_of_lt (Nat.sub_le _ _) t.isLt)).2 _)
      iframe H0 H1 H2 H3 H4 H5 H6 H7 H8
      isplitl [H9]; · iexists _; iexact H9
      iframe HS0 HS1
      iintro ⟨H0, H1, H2, H3, H4, H5, H6, H7, H8, H9, HS0, HS1⟩
      iframe HS0 HS1 HR Hg Ho H0 H1 H2 H3 H4 H5 H6 H7 H8
      iexact H9
    · have hc1 : ¬cond3_1 (grid3.coords t) := fun h => h0 ((hcond3_1 t).mp h)
      have hc2 : ¬cond3_2 (grid3.coords t) := fun h => h19 ((hcond3_2 t).mp h)
      rw [Dat.leavesExact_idle (dat3 V c) 9 t (idleAt3_9 t hc2) (noFlush3_9 t hc2)]
      rw [acc3_pos_1 V c t h0, acc3_pos_2 V c t h0]
      rw [PhiS3_castSucc V c t, PhiS3_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel3_B c Set.univ (grid3.coords t) hc1 hc2 _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) ((dat3 V c).before 9 t d9) (acc3 V c (t.val - 1) (Nat.lt_of_le_of_lt (Nat.sub_le _ _) t.isLt)).1 (acc3 V c (t.val - 1) (Nat.lt_of_le_of_lt (Nat.sub_le _ _) t.isLt)).2 _)
      iframe H0 H1 H2 H3 H4 H5 H6 H7 H8 H9 HS0 HS1
      iintro ⟨H0, H1, H2, H3, H4, H5, H6, H7, H8, H9, HS0, HS1⟩
      iframe HS0 HS1 HR Hg Ho H0 H1 H2 H3 H4 H5 H6 H7 H8
      iexists _; iexact H9

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameHalves.lean ====
import proofs.«415688_j20925080666769_1_alg».proof.Proof.FrameRun
import proofs.«415688_j20925080666769_1_alg».proof.Proof.FrameR0
import proofs.«415688_j20925080666769_1_alg».proof.Proof.FrameR1
import proofs.«415688_j20925080666769_1_alg».proof.Proof.FrameR2
import proofs.«415688_j20925080666769_1_alg».proof.Proof.FrameR3

noncomputable section

namespace Cert.KernelIdeal.Hand

open Idealize.ShloMosaic Idealize.ShloMosaic.TcCoe
open Idealize.SL Idealize.SL.BI
open scoped Idealize.SL.BI
open Idealize.SL.Sem
open Idealize.ShloMosaic.Pipeline (Dat Cfg Window BodyObligation)
open Cert.KernelIdeal.Gen

variable {F : FTy → Type} [FloatOps F]

def half0 : Half F 0 where
  dat V c := dat0 V c
  hA V c w := A_eq0 V c w
  hq _ _ _ := rfl
  howed _ _ _ := rfl
  hrec _ _ _ := rfl
  hΦ0 _ _ := rfl
  hΦN _ _ := .rfl
  hbody V c := body_obligation0 V c

def half1 : Half F 1 where
  dat V c := dat1 V c
  hA V c w := A_eq1 V c w
  hq _ _ _ := rfl
  howed _ _ _ := rfl
  hrec _ _ _ := rfl
  hΦ0 _ _ := rfl
  hΦN _ _ := .rfl
  hbody V c := body_obligation1 V c

def half2 : Half F 2 where
  dat V c := dat2 V c
  hA V c w := A_eq2 V c w
  hq _ _ _ := rfl
  howed _ _ _ := rfl
  hrec _ _ _ := rfl
  hΦ0 _ _ := rfl
  hΦN _ _ := .rfl
  hbody V c := body_obligation2 V c

def half3 : Half F 3 where
  dat V c := dat3 V c
  hA V c w := A_eq3 V c w
  hq _ _ _ := rfl
  howed _ _ _ := rfl
  hrec _ _ _ := rfl
  hΦ0 V c := Phi3_zero V c
  hΦN V c := Phi3_last V c
  hbody V c := body_obligation3 V c

end Cert.KernelIdeal.Hand

end
-- ==== Proof.Val0Pay.lean ====
import proofs.«415688_j20925080666769_1_alg».proof.Proof.Data
import proofs.«415688_j20925080666769_1_alg».proof.Proof.ValSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal.Gen
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem mm_zero_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs_mm_0 _ _
      | ⟨1, _⟩ => exact (lhs_mm_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs_mm_0 _ _).trans hk
      | ⟨1, _⟩ => exact rhs_mm_1 _ _)
  rw [el, er]

theorem k0_pay1_apply (v0 : Vec Ideal S5000x128 .f32) (v2 : Vec Ideal S5000x1 .f32) (v6 : Vec Ideal S128x128 .f32)
    (v9 : Vec Ideal S128 .f32) (v13 : Vec Ideal S5000x128 .f32) (v14 : Vec Ideal S128x128 .f32) (p : Fin 5000) (q : Fin 128) :
    k0_pay1 v0 v2 v6 v9 v13 v14 (ix2 p q)
      = (∑ k : Fin 128, (v0 (ix2 p k) * v2 (ix2 p (0 : Fin 1))) * v6 (ix2 k q)) + v9 (ix1 q)
        + ∑ k : Fin 128, v13 (ix2 p k) * v14 (ix2 k q) := by
  unfold k0_pay1
  simp only [shapeCast_self]
  rw [addf_apply, addf_apply, mm_zero_apply, mm_zero_apply, broadcastTo_1b_ab_apply, shapeCast_a_1a_apply]
  congr 2
  refine Finset.sum_congr rfl fun k _ => ?_
  rw [mulf_apply, broadcastTo_a1_ab_apply]

end Cert.KernelIdeal.Hand

end
-- ==== Proof.Val0Blk.lean ====
import proofs.«415688_j20925080666769_1_alg».proof.Proof.Data
import proofs.«415688_j20925080666769_1_alg».proof.Proof.ValSpec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen
open scoped BigOperators

variable (V : (c : Dev nD) → (b : Ref sig .tc) → Buf (Elt Ideal) ((c : Thread nD τ).loc b))

namespace Val0

theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem iblk0_0_apply (c : Dev nD) (t : Fin cfg0.N) (p : Fin 5000) (k : Fin 128) (n : Fin 100000)
    (hn : n.val = t.val * 5000 + p.val) :
    (iblk0 V c 0 t : Vec Ideal S5000x128 .f32) (ix2 p k) = (V c main_v23 : S100000x128.Idx → EReal) (ix2 n k) := by
  obtain ⟨e0, e1, -⟩ := blockIdx0 t
  unfold iblk0
  rw [View.read_apply]
  show V c main_v23 _ = V c main_v23 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

theorem iblk0_1_apply (c : Dev nD) (t : Fin cfg0.N) (p : Fin 5000) (n : Fin 100000)
    (hn : n.val = t.val * 5000 + p.val) :
    (iblk0 V c 1 t : Vec Ideal S5000x1 .f32) (ix2 p (0 : Fin 1)) = (V c main_v13 : S100000x1.Idx → EReal) (ix2 n (0 : Fin 1)) := by
  obtain ⟨-, -, e0, e1, -⟩ := blockIdx0 t
  unfold iblk0
  rw [View.read_apply]
  show V c main_v13 _ = V c main_v13 _
  congr 1
  funext a
  apply Fin.ext
  match a with
  | ⟨0, _⟩ => show win0_1.index t (0 : Fin 2) * 5000 + 1 * p.val = n.val; rw [e0, hn]; omega
  | ⟨1, _⟩ => show win0_1.index t (1 : Fin 2) * 1 + 1 * 0 = 0; rw [e1]

theorem iblk0_2_apply (c : Dev nD) (t : Fin cfg0.N) (p : Fin 5000) (k : Fin 128) (n : Fin 100000)
    (hn : n.val = t.val * 5000 + p.val) :
    (iblk0 V c 2 t : Vec Ideal S5000x128 .f32) (ix2 p k) = (V c main_arg0 : S100000x128.Idx → EReal) (ix2 n k) := by
  obtain ⟨-, -, -, -, e0, e1, -⟩ := blockIdx0 t
  unfold iblk0
  rw [View.read_apply]
  show V c main_arg0 _ = V c main_arg0 _
  congr 1
  funext a
  apply Fin.ext
  match a with
  | ⟨0, _⟩ => show win0_2.index t (0 : Fin 2) * 5000 + 1 * p.val = n.val; rw [e0, hn]; omega
  | ⟨1, _⟩ => show win0_2.index t (1 : Fin 2) * 128 + 1 * k.val = k.val; rw [e1]; omega

theorem iblk0_3_apply (c : Dev nD) (t : Fin cfg0.N) (k q : Fin 128) :
    (iblk0 V c 3 t : Vec Ideal S128x128 .f32) (ix2 k q) = (V c main_v24 : S128x128.Idx → EReal) (ix2 k q) := by
  obtain ⟨-, -, -, -, -, -, e0, e1, -⟩ := blockIdx0 t
  unfold iblk0
  rw [View.read_apply]
  show V c main_v24 _ = V c main_v24 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem iblk0_4_apply (c : Dev nD) (t : Fin cfg0.N) (q : Fin 128) :
    (iblk0 V c 4 t : Vec Ideal S128 .f32) (ix1 q) = (V c main_arg4 : S128.Idx → EReal) (ix1 q) := by
  obtain ⟨-, -, -, -, -, -, -, -, e0, -⟩ := blockIdx0 t
  unfold iblk0
  rw [View.read_apply]
  show V c main_arg4 _ = V c main_arg4 _
  congr 1
  funext a
  apply Fin.ext
  match a with
  | ⟨0, _⟩ => show win0_4.index t (0 : Fin 1) * 128 + 1 * q.val = q.val; rw [e0]; omega

theorem iblk0_5_apply (c : Dev nD) (t : Fin cfg0.N) (k q : Fin 128) :
    (iblk0 V c 5 t : Vec Ideal S128x128 .f32) (ix2 k q) = (V c main_v25 : S128x128.Idx → EReal) (ix2 k q) := by
  obtain ⟨-, -, -, -, -, -, -, -, -, e0, e1, -⟩ := blockIdx0 t
  unfold iblk0
  rw [View.read_apply]
  show V c main_v25 _ = V c main_v25 _
  congr 1
  funext a
  apply Fin.ext
  match a with
  | ⟨0, _⟩ => show win0_5.index t (0 : Fin 2) * 128 + 1 * k.val = k.val; rw [e0]; omega
  | ⟨1, _⟩ => show win0_5.index t (1 : Fin 2) * 128 + 1 * q.val = q.val; rw [e1]; omega

theorem mem_blk0 (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, -, e0, e1⟩ := blockIdx0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

end Val0

end Cert.KernelIdeal.Hand

end
-- ==== Proof.Val0.lean ====
import proofs.«415688_j20925080666769_1_alg».proof.Proof.Val0Pay
import proofs.«415688_j20925080666769_1_alg».proof.Proof.Val0Blk

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen
open scoped BigOperators

variable (V : (c : Dev nD) → (b : Ref sig .tc) → Buf (Elt Ideal) ((c : Thread nD τ).loc b))

namespace Val0

theorem outAt0_eq_pay (c : Dev nD) (t : Fin cfg0.N) :
    outAt0 V c t = k0_pay1 (iblk0 V c 0 t) (iblk0 V c 1 t) (iblk0 V c 3 t) (iblk0 V c 4 t) (iblk0 V c 2 t) (iblk0 V c 5 t) := by
  unfold outAt0 out0_6
  rw [View.canon_unit_zero hz2]
  simp only [View.ld_unit_zero (S := S5000x128) hz2, View.ld_unit_zero (S := S5000x1) hz2,
    View.ld_unit_zero (S := S128x128) hz2, View.ld_unit_zero (S := S128) hz1]

theorem outAt0_apply (c : Dev nD) (t : Fin cfg0.N) (p : Fin 5000) (q : Fin 128) (n : Fin 100000)
    (hn : n.val = t.val * 5000 + p.val) :
    outAt0 V c t (ix2 p q)
      = G0 (V c main_v23) (V c main_v13) (V c main_arg0) (V c main_v24) (V c main_arg4) (V c main_v25) n q := by
  rw [outAt0_eq_pay, k0_pay1_apply]
  unfold G0
  rw [iblk0_1_apply V c t p n hn, iblk0_4_apply V c t q]
  refine congrArg₂ (fun x y : EReal => x + y)
    (congrArg₂ (fun x y : EReal => x + y) (Finset.sum_congr rfl fun k _ => ?_) rfl)
    (Finset.sum_congr rfl fun k _ => ?_)
  · rw [iblk0_0_apply V c t p k n hn, iblk0_3_apply V c t k q]
  · rw [iblk0_2_apply V c t p k n hn, iblk0_5_apply V c t k q]

def GA0 (c : Dev nD) : S100000x128.Idx → EReal := fun i =>
  G0 (V c main_v23) (V c main_v13) (V c main_arg0) (V c main_v24) (V c main_arg4) (V c main_v25) (i 0) (i 1)

theorem emb0_6 (t : Fin cfg0.N) (p : Fin 5000) (q : Fin 128) (n : Fin 100000) (hn : n.val = t.val * 5000 + p.val) :
    ((cfg0.win 6).blk t).view.emb (ix2 p q) = (ix2 n q : S100000x128.Idx) := by
  obtain ⟨-, -, -, -, -, -, -, -, -, -, -, e0, e1⟩ := blockIdx0 t
  funext a
  apply Fin.ext
  match a with
  | ⟨0, _⟩ => show win0_6.index t (0 : Fin 2) * 5000 + 1 * p.val = n.val; rw [e0, hn]; omega
  | ⟨1, _⟩ => show win0_6.index t (1 : Fin 2) * 128 + 1 * q.val = q.val; rw [e1]; omega

theorem flushed0_eq (c : Dev nD) (dat : Dat τ (Elt Ideal) Unit ℕ (UR sig nD τ) ℕ cfg0 c)
    (hout : ∀ t, dat.after 6 t = outAt0 V c t) (t : Fin cfg0.N) :
    dat.flushed 6 t = ((cfg0.win 6).blk t).view.read (Elt Ideal) (GA0 V c) := by
  show (cfg0.win 6).cut (grid0.coords t) (dat.after 6 t) = _
  rw [hout]
  funext y
  obtain ⟨p, q, rfl⟩ : ∃ (p : Fin 5000) (q : Fin 128), y = ix2 p q := ⟨y 0, y 1, eq_ix2 y⟩
  have hN : cfg0.N = 20 := N_0
  have ht : t.val < 20 := hN ▸ t.isLt
  obtain ⟨n, hn⟩ : ∃ n : Fin 100000, n.val = t.val * 5000 + p.val := ⟨⟨t.val * 5000 + p.val, by omega⟩, rfl⟩
  rw [View.read_apply, emb0_6 t p q n hn]
  exact outAt0_apply V c t p q n hn

end Val0

theorem arr0 (c : Dev nD) (dat : Dat τ (Elt Ideal) Unit ℕ (UR sig nD τ) ℕ cfg0 c)
    (hA : ∀ w, dat.A w = V c (Pipeline.arrRef spec0 w)) (hout : ∀ t, dat.after 6 t = outAt0 V c t)
    (n : Fin 100000) (j : Fin 128) :
    dat.arrAt 6 cfg0.N (ix2 n j)
      = G0 (V c main_v23) (V c main_v13) (V c main_arg0) (V c main_v24) (V c main_arg4) (V c main_v25) n j := by
  have h := dat.arrAt_eq_of_cover 6 (Val0.GA0 V c) (fun t _ => Val0.flushed0_eq V c dat hout t) Val0.cover0
  exact congrFun h (ix2 n j)

end Cert.KernelIdeal.Hand

end
-- ==== Proof.Val1Pay.lean ====
import proofs.«415688_j20925080666769_1_alg».proof.Proof.Data
import proofs.«415688_j20925080666769_1_alg».proof.Proof.ValSpec
import Idealize.ShloMosaic.Lib.Pipeline.Value
import Idealize.ShloMosaic.Lib.ValueLayout
import Idealize.ShloMosaic.PureOps.Ideal.Laws
import Idealize.ShloMosaic.Lib.ValueIdx

noncomputable section

namespace Cert.KernelIdeal.Hand

open Idealize.ShloMosaic Idealize.ShloMosaic.TcCoe Idealize.ShloMosaic.ValueIdx
open Cert.KernelIdeal.Gen
open scoped BigOperators

theorem lift_col (j : Fin 128) (k : Fin 5000) : reduces_S5000x128_S128.lift (ix1 j) k = ix2 k j := by
  funext c
  apply Fin.ext
  match c with
  | ⟨0, _⟩ => rfl
  | ⟨1, _⟩ => rfl

theorem colsum_apply (x : FVec Ideal S5000x128 .f32) (hφ : FKind.Formats .f32)
    (hacc : (0x00000000#32 : BitVec 32) = 0x00000000#32) (j : Fin 128) :
    multiReduction .add [0] S128 x 0x00000000#32 reduces_S5000x128_S128 hφ hacc (ix1 j) = ∑ r : Fin 5000, x (ix2 r j) :=
  (Ideal.multiReduction_add_single x 0x00000000#32 reduces_S5000x128_S128 hφ hacc (ix1 j)).trans
    (Finset.sum_congr rfl fun k _ => congrArg x (lift_col j k))

theorem pay3_apply (x0 : Vec Ideal S5000x128 .f32) (v : Vec Ideal S1x128 .f32) (u : Fin 1) (j : Fin 128) :
    k1_pay3 x0 v (ix2 u j) = v (ix2 (0 : Fin 1) j) + ∑ r : Fin 5000, x0 (ix2 r j) := by
  unfold k1_pay3 k1_pay2
  refine (shapeCast_a_1a_apply _ shapeCasts_S128_S1x128 u j).trans ?_
  refine (addf_apply _ _ (ix1 j)).trans ?_
  refine congrArg₂ (· + ·) (shapeCast_1a_a_apply v shapeCasts_S1x128_S128 j) ?_
  refine (colsum_apply _ _ _ j).trans ?_
  rw [shapeCast_self]

theorem pay4_apply (x0 : Vec Ideal S5000x128 .f32) (v : Vec Ideal S1x128 .f32) (u : Fin 1) (j : Fin 128) :
    k1_pay4 x0 v (ix2 u j) = v (ix2 (0 : Fin 1) j) + ∑ r : Fin 5000, x0 (ix2 r j) * x0 (ix2 r j) := by
  unfold k1_pay4 k1_pay2
  refine (shapeCast_a_1a_apply _ shapeCasts_S128_S1x128 u j).trans ?_
  refine (addf_apply _ _ (ix1 j)).trans ?_
  refine congrArg₂ (· + ·) (shapeCast_1a_a_apply v shapeCasts_S1x128_S128 j) ?_
  refine (colsum_apply _ _ _ j).trans ?_
  rw [shapeCast_self]
  rfl

theorem pay1_apply (i : S2x128.Idx) : (k1_pay1 (F := Ideal)) i = 0 := by
  unfold k1_pay1
  show Ideal.ofBits .f32 0x00000000#32 = 0
  simp [Ideal.ofBits, Ideal.ieee]

theorem row1_emb (j : Fin 128) : (ix2 (1 : Fin 2) j : S2x128.Idx) = rS1.emb (ix2 (0 : Fin 1) j) := by
  funext a
  apply Fin.ext
  match a with
  | ⟨0, _⟩ => rfl
  | ⟨1, _⟩ => show j.val = 0 + 1 * j.val; omega

theorem row0_emb (j : Fin 128) : (ix2 (0 : Fin 2) j : S2x128.Idx) = rS0.emb (ix2 (0 : Fin 1) j) := by
  funext a
  apply Fin.ext
  match a with
  | ⟨0, _⟩ => rfl
  | ⟨1, _⟩ => show j.val = 0 + 1 * j.val; omega

theorem row0_not_mem (j : Fin 128) : (ix2 (0 : Fin 2) j : S2x128.Idx) ∉ rS1.set := by
  rw [Rect.mem_set_unit]
  intro h
  exact Nat.not_succ_le_zero 0 (h 0).1

theorem canon_rows_1 (w1 w0 : Vec Ideal S1x128 .f32) (j : Fin 128) :
    View.canon [(⟨rS1, w1⟩ : View.Piece (Elt Ideal) S2x128 .f32), ⟨rS0, w0⟩] (ix2 (1 : Fin 2) j) = w1 (ix2 (0 : Fin 1) j) :=
  (congrArg (View.canon [(⟨rS1, w1⟩ : View.Piece (Elt Ideal) S2x128 .f32), ⟨rS0, w0⟩]) (row1_emb j)).trans
    (View.canon_cons_emb rS1 w1 [(⟨rS0, w0⟩ : View.Piece (Elt Ideal) S2x128 .f32)] (ix2 (0 : Fin 1) j))

theorem canon_rows_0 (w1 w0 : Vec Ideal S1x128 .f32) (j : Fin 128) :
    View.canon [(⟨rS1, w1⟩ : View.Piece (Elt Ideal) S2x128 .f32), ⟨rS0, w0⟩] (ix2 (0 : Fin 2) j) = w0 (ix2 (0 : Fin 1) j) :=
  (View.canon_cons_of_not_mem (⟨rS1, w1⟩ : View.Piece (Elt Ideal) S2x128 .f32) [(⟨rS0, w0⟩ : View.Piece (Elt Ideal) S2x128 .f32)]
      (row0_not_mem j)).trans
    ((congrArg (View.canon [(⟨rS0, w0⟩ : View.Piece (Elt Ideal) S2x128 .f32)]) (row0_emb j)).trans
      (View.canon_cons_emb rS0 w0 [] (ix2 (0 : Fin 1) j)))

theorem step1_row1 (x0 : Vec Ideal S5000x128 .f32) (o : Vec Ideal S2x128 .f32) (j : Fin 128) :
    step1 x0 o (ix2 (1 : Fin 2) j) = o (ix2 (1 : Fin 2) j) + ∑ r : Fin 5000, x0 (ix2 r j) * x0 (ix2 r j) := by
  unfold step1
  refine (canon_rows_1 _ _ j).trans ?_
  refine (pay4_apply _ _ 0 j).trans ?_
  rw [View.ld_unit_zero (S := S5000x128) hz2]
  show o (rS1.emb (ix2 (0 : Fin 1) j)) + _ = _
  rw [← row1_emb j]

theorem step1_row0 (x0 : Vec Ideal S5000x128 .f32) (o : Vec Ideal S2x128 .f32) (j : Fin 128) :
    step1 x0 o (ix2 (0 : Fin 2) j) = o (ix2 (0 : Fin 2) j) + ∑ r : Fin 5000, x0 (ix2 r j) := by
  unfold step1
  refine (canon_rows_0 _ _ j).trans ?_
  refine (pay3_apply _ _ 0 j).trans ?_
  rw [View.ld_unit_zero (S := S5000x128) hz2]
  show o (rS0.emb (ix2 (0 : Fin 1) j)) + _ = _
  rw [← row0_emb j]

end Cert.KernelIdeal.Hand

end
-- ==== Proof.Val1Acc.lean ====
import proofs.«415688_j20925080666769_1_alg».proof.Proof.Val1Pay
import Mathlib.Logic.Equiv.Fin.Basic
import Mathlib.Algebra.BigOperators.Fin

noncomputable section

namespace Cert.KernelIdeal.Hand

open Idealize.ShloMosaic Idealize.ShloMosaic.TcCoe Idealize.ShloMosaic.ValueIdx
open Cert.KernelIdeal.Gen
open scoped BigOperators

variable (V : (c : Dev nD) → (b : Ref sig .tc) → Buf (Elt Ideal) ((c : Thread nD τ).loc b))

abbrev xarr1 (c : Dev nD) : Vec Ideal S100000x128 .f32 := V c main_v26

abbrev xblk1 (c : Dev nD) (t : Fin cfg1.N) : Vec Ideal S5000x128 .f32 := iblk1 V c 0 t

theorem idx1_0 : ∀ t : Fin cfg1.N, win1_0.index t (0 : Fin 2) = t.val ∧ win1_0.index t (1 : Fin 2) = 0 :=
  (by decide +kernel : ∀ t : Fin grid1.N, _)

theorem xblk1_apply (c : Dev nD) (t : Fin cfg1.N) (r : Fin 5000) (j : Fin 128) (h : 5000 * t.val + r.val < 100000) :
    xblk1 V c t (ix2 r j) = xarr1 V c (ix2 (⟨5000 * t.val + r.val, h⟩ : Fin 100000) j) := by
  show iblk1 V c 0 t (ix2 r j) = V c main_v26 _
  unfold iblk1
  rw [View.read_apply]
  show V c main_v26 _ = V c main_v26 _
  congr 1
  funext a
  apply Fin.ext
  match a with
  | ⟨0, _⟩ => show win1_0.index t (0 : Fin 2) * 5000 + 1 * r.val = 5000 * t.val + r.val; rw [(idx1_0 t).1]; omega
  | ⟨1, _⟩ => show win1_0.index t (1 : Fin 2) * 128 + 1 * j.val = j.val; rw [(idx1_0 t).2]; omega

def tileSum (c : Dev nD) (j : Fin 128) (s : ℕ) : EReal :=
  if h : s < cfg1.N then ∑ r : Fin 5000, xblk1 V c ⟨s, h⟩ (ix2 r j) else 0

def tileSq (c : Dev nD) (j : Fin 128) (s : ℕ) : EReal :=
  if h : s < cfg1.N then ∑ r : Fin 5000, xblk1 V c ⟨s, h⟩ (ix2 r j) * xblk1 V c ⟨s, h⟩ (ix2 r j) else 0

theorem acc1_row0 (c : Dev nD) (j : Fin 128) : ∀ (t : ℕ) (h : t < cfg1.N),
    acc1 V c t h (ix2 (0 : Fin 2) j) = ∑ s ∈ Finset.range (t + 1), tileSum V c j s
  | 0, h => by
    rw [Finset.sum_range_one]
    show step1 (xblk1 V c ⟨0, h⟩) (k1_pay1 (F := Ideal)) (ix2 (0 : Fin 2) j) = _
    refine (step1_row0 (xblk1 V c ⟨0, h⟩) (k1_pay1 (F := Ideal)) j).trans ?_
    rw [pay1_apply, zero_add]
    unfold tileSum
    rw [dif_pos h]
  | t + 1, h => by
    rw [Finset.sum_range_succ, ← acc1_row0 c j t (Nat.lt_of_succ_lt h)]
    show step1 (xblk1 V c ⟨t + 1, h⟩) (acc1 V c t (Nat.lt_of_succ_lt h)) (ix2 (0 : Fin 2) j) = _
    refine (step1_row0 (xblk1 V c ⟨t + 1, h⟩) (acc1 V c t (Nat.lt_of_succ_lt h)) j).trans ?_
    unfold tileSum
    rw [dif_pos h]

theorem acc1_row1 (c : Dev nD) (j : Fin 128) : ∀ (t : ℕ) (h : t < cfg1.N),
    acc1 V c t h (ix2 (1 : Fin 2) j) = ∑ s ∈ Finset.range (t + 1), tileSq V c j s
  | 0, h => by
    rw [Finset.sum_range_one]
    show step1 (xblk1 V c ⟨0, h⟩) (k1_pay1 (F := Ideal)) (ix2 (1 : Fin 2) j) = _
    refine (step1_row1 (xblk1 V c ⟨0, h⟩) (k1_pay1 (F := Ideal)) j).trans ?_
    rw [pay1_apply, zero_add]
    unfold tileSq
    rw [dif_pos h]
  | t + 1, h => by
    rw [Finset.sum_range_succ, ← acc1_row1 c j t (Nat.lt_of_succ_lt h)]
    show step1 (xblk1 V c ⟨t + 1, h⟩) (acc1 V c t (Nat.lt_of_succ_lt h)) (ix2 (1 : Fin 2) j) = _
    refine (step1_row1 (xblk1 V c ⟨t + 1, h⟩) (acc1 V c t (Nat.lt_of_succ_lt h)) j).trans ?_
    unfold tileSq
    rw [dif_pos h]

theorem sum_tiles (f : Fin 100000 → EReal) :
    ∑ n : Fin 100000, f n = ∑ s : Fin 20, ∑ r : Fin 5000, f ⟨5000 * s.val + r.val, by have := s.isLt; have := r.isLt; omega⟩ :=
  calc ∑ n : Fin 100000, f n
      = ∑ p : Fin 20 × Fin 5000, f (finProdFinEquiv (m := 20) (n := 5000) p) :=
        (Equiv.sum_comp (finProdFinEquiv (m := 20) (n := 5000)) f).symm
    _ = ∑ s : Fin 20, ∑ r : Fin 5000, f (finProdFinEquiv (m := 20) (n := 5000) (s, r)) := Fintype.sum_prod_type _
    _ = _ := Finset.sum_congr rfl fun s _ => Finset.sum_congr rfl fun r _ => congrArg f (Fin.ext (by
        show r.val + 5000 * s.val = 5000 * s.val + r.val; omega))

theorem tileSum_eq (c : Dev nD) (j : Fin 128) (s : Fin 20) :
    tileSum V c j s.val
      = ∑ r : Fin 5000, xarr1 V c (ix2 (⟨5000 * s.val + r.val, by have := s.isLt; have := r.isLt; omega⟩ : Fin 100000) j) := by
  have hN : cfg1.N = 20 := N_1
  unfold tileSum
  rw [dif_pos (by rw [hN]; exact s.isLt)]
  exact Finset.sum_congr rfl fun r _ => xblk1_apply V c _ r j _

theorem tileSq_eq (c : Dev nD) (j : Fin 128) (s : Fin 20) :
    tileSq V c j s.val
      = ∑ r : Fin 5000, xarr1 V c (ix2 (⟨5000 * s.val + r.val, by have := s.isLt; have := r.isLt; omega⟩ : Fin 100000) j)
          * xarr1 V c (ix2 (⟨5000 * s.val + r.val, by have := s.isLt; have := r.isLt; omega⟩ : Fin 100000) j) := by
  have hN : cfg1.N = 20 := N_1
  unfold tileSq
  rw [dif_pos (by rw [hN]; exact s.isLt)]
  exact Finset.sum_congr rfl fun r _ => by rw [xblk1_apply V c _ r j _]

theorem acc1_last_row0 (c : Dev nD) (j : Fin 128) (h : 19 < cfg1.N) :
    acc1 V c 19 h (ix2 (0 : Fin 2) j) = ∑ n : Fin 100000, xarr1 V c (ix2 n j) := by
  rw [acc1_row0 V c j 19 h]
  show ∑ s ∈ Finset.range 20, tileSum V c j s = _
  rw [Finset.sum_range, sum_tiles (fun n => xarr1 V c (ix2 n j))]
  exact Finset.sum_congr rfl fun s _ => tileSum_eq V c j s

theorem acc1_last_row1 (c : Dev nD) (j : Fin 128) (h : 19 < cfg1.N) :
    acc1 V c 19 h (ix2 (1 : Fin 2) j) = ∑ n : Fin 100000, xarr1 V c (ix2 n j) * xarr1 V c (ix2 n j) := by
  rw [acc1_row1 V c j 19 h]
  show ∑ s ∈ Finset.range 20, tileSq V c j s = _
  rw [Finset.sum_range, sum_tiles (fun n => xarr1 V c (ix2 n j) * xarr1 V c (ix2 n j))]
  exact Finset.sum_congr rfl fun s _ => tileSq_eq V c j s

theorem acc1_last (c : Dev nD) (h : 19 < cfg1.N) (r : Fin 2) (j : Fin 128) :
    acc1 V c 19 h (ix2 r j) = G1 (V c main_v26) r j := by
  unfold G1
  by_cases hr : r.val = 0
  · rw [if_pos hr]
    obtain rfl : r = 0 := Fin.ext hr
    exact acc1_last_row0 V c j h
  · rw [if_neg hr]
    obtain rfl : r = 1 := Fin.ext (by have := r.isLt; show r.val = 1; omega)
    exact acc1_last_row1 V c j h

end Cert.KernelIdeal.Hand

end
-- ==== Proof.Val1.lean ====
import proofs.«415688_j20925080666769_1_alg».proof.Proof.Val1Acc
import Idealize.ShloMosaic.Lib.Pipeline.Value

noncomputable section

namespace Cert.KernelIdeal.Hand

open Idealize.ShloMosaic Idealize.ShloMosaic.TcCoe Idealize.ShloMosaic.ValueIdx
open Idealize.ShloMosaic.Pipeline (Dat)
open Cert.KernelIdeal.Gen
open scoped BigOperators

variable (V : (c : Dev nD) → (b : Ref sig .tc) → Buf (Elt Ideal) ((c : Thread nD τ).loc b))

abbrev tlast1 : Fin cfg1.N := ⟨19, by decide⟩

abbrev res1 (c : Dev nD) : Buf (Elt Ideal) ((c : Thread nD τ).loc main_v27) := acc1 V c 19 (by decide)

theorem flushed1_eq (c : Dev nD) (dat : Dat τ (Elt Ideal) Unit ℕ (UR sig nD τ) ℕ cfg1 c)
    (hout : ∀ t, dat.after 1 t = acc1 V c t.val t.isLt) (t : Fin cfg1.N) (hf : (cfg1.win 1).flush t = true) :
    dat.flushed 1 t = ((cfg1.win 1).blk t).view.read (Elt Ideal) (res1 V c) := by
  have hN : cfg1.N = 20 := N_1
  have h19 : t.val = 19 := by have := (flush1_1 t).mp hf; have := t.isLt; omega
  obtain rfl : t = tlast1 := Fin.ext h19
  show (cfg1.win 1).cut (grid1.coords tlast1) (dat.after 1 tlast1) = _
  rw [hout]
  have hz' : (fun a => win1_1.index tlast1 a * main_v27.ty.shape.size a) = fun _ => 0 :=
    funext fun a => by fin_cases a <;> decide
  exact (Memref.read_access_unit_zero (Elt Ideal) main_v27 hz' (fun a => by rw [congrFun hz' a]; simp) (res1 V c)).symm

theorem arr1_final (c : Dev nD) (dat : Dat τ (Elt Ideal) Unit ℕ (UR sig nD τ) ℕ cfg1 c)
    (hout : ∀ t, dat.after 1 t = acc1 V c t.val t.isLt) : dat.arrAt 1 cfg1.N = res1 V c :=
  dat.arrAt_eq_of_cover 1 (res1 V c) (flushed1_eq V c dat hout) fun i =>
    ⟨tlast1, (flush1_1 tlast1).mpr rfl, by
      show i ∈ ((View.whole main_v27).slice (win1_1.rect tlast1)).set
      rw [View.set_slice_whole, Rect.mem_set_unit]
      intro a
      have h0 : (i 0 : Nat) < 2 := (i 0).isLt
      have h1 : (i 1 : Nat) < 128 := (i 1).isLt
      match a with
      | ⟨0, _⟩ =>
        show win1_1.index tlast1 0 * win1_1.size 0 ≤ (i 0 : Nat)
          ∧ (i 0 : Nat) < win1_1.index tlast1 0 * win1_1.size 0 + win1_1.xsize (grid1.coords tlast1) 0
        rw [show win1_1.index tlast1 0 * win1_1.size 0 = 0 from by decide +kernel,
          show win1_1.xsize (grid1.coords tlast1) 0 = 2 from by decide +kernel]
        omega
      | ⟨1, _⟩ =>
        show win1_1.index tlast1 1 * win1_1.size 1 ≤ (i 1 : Nat)
          ∧ (i 1 : Nat) < win1_1.index tlast1 1 * win1_1.size 1 + win1_1.xsize (grid1.coords tlast1) 1
        rw [show win1_1.index tlast1 1 * win1_1.size 1 = 0 from by decide +kernel,
          show win1_1.xsize (grid1.coords tlast1) 1 = 128 from by decide +kernel]
        omega⟩

theorem arr1 (c : Dev nD) (dat : Dat τ (Elt Ideal) Unit ℕ (UR sig nD τ) ℕ cfg1 c) (hA : ∀ w, dat.A w = V c (Pipeline.arrRef spec1 w)) (hout : ∀ t, dat.after 1 t = acc1 V c t.val t.isLt) (r : Fin 2) (j : Fin 128) :
      dat.arrAt 1 cfg1.N (ix2 r j) = G1 (V c main_v26) r j :=
  (congrFun (arr1_final V c dat hout) (ix2 r j)).trans (acc1_last V c (by decide) r j)

end Cert.KernelIdeal.Hand

end
-- ==== Proof.Val2Pay.lean ====
import proofs.«415688_j20925080666769_1_alg».proof.Proof.Data
import proofs.«415688_j20925080666769_1_alg».proof.Proof.ValSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx
open Cert.KernelIdeal.Gen
open scoped BigOperators

theorem k2_pay1_apply (v0 : Vec Ideal S5000x128 .f32) (v2 v7 : Vec Ideal S128 .f32) (p : Fin 5000) (q : Fin 128) :
    k2_pay1 v0 v2 v7 (ix2 p q) = max (v0 (ix2 p q) * v2 (ix1 q) + v7 (ix1 q)) 0 := by
  unfold k2_pay1
  simp only [shapeCast_self]
  rw [maximumf_apply, addf_apply, mulf_apply, broadcast_apply, broadcastTo_1b_ab_apply, broadcastTo_1b_ab_apply,
    shapeCast_a_1a_apply, shapeCast_a_1a_apply]
  show max _ (Ideal.ofBits .f32 0x00000000#32) = _
  rw [Ideal.ofBits_zero_f32]

end Cert.KernelIdeal.Hand

end
-- ==== Proof.Val2.lean ====
import proofs.«415688_j20925080666769_1_alg».proof.Proof.Val2Pay

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal.Gen
open scoped BigOperators

variable (V : (c : Dev nD) → (b : Ref sig .tc) → Buf (Elt Ideal) ((c : Thread nD τ).loc b))

namespace Val2

theorem blockIdx2 : ∀ t : Fin cfg2.N,
    win2_0.index t (0 : Fin 2) = t.val ∧ win2_0.index t (1 : Fin 2) = 0
    ∧ win2_1.index t (0 : Fin 1) = 0
    ∧ win2_2.index t (0 : Fin 1) = 0
    ∧ win2_3.index t (0 : Fin 2) = t.val ∧ win2_3.index t (1 : Fin 2) = 0 :=
  (by decide +kernel : ∀ t : Fin grid2.N, _)

theorem iblk2_0_apply (c : Dev nD) (t : Fin cfg2.N) (p : Fin 5000) (k : Fin 128) (n : Fin 100000)
    (hn : n.val = t.val * 5000 + p.val) :
    (iblk2 V c 0 t : Vec Ideal S5000x128 .f32) (ix2 p k) = (V c main_v26 : S100000x128.Idx → EReal) (ix2 n k) := by
  obtain ⟨e0, e1, -⟩ := blockIdx2 t
  unfold iblk2
  rw [View.read_apply]
  show V c main_v26 _ = V c main_v26 _
  congr 1
  funext a
  apply Fin.ext
  match a with
  | ⟨0, _⟩ => show win2_0.index t (0 : Fin 2) * 5000 + 1 * p.val = n.val; rw [e0, hn]; omega
  | ⟨1, _⟩ => show win2_0.index t (1 : Fin 2) * 128 + 1 * k.val = k.val; rw [e1]; omega

theorem iblk2_1_apply (c : Dev nD) (t : Fin cfg2.N) (q : Fin 128) :
    (iblk2 V c 1 t : Vec Ideal S128 .f32) (ix1 q) = (V c main_v41 : S128.Idx → EReal) (ix1 q) := by
  obtain ⟨-, -, e0, -⟩ := blockIdx2 t
  unfold iblk2
  rw [View.read_apply]
  show V c main_v41 _ = V c main_v41 _
  congr 1
  funext a
  apply Fin.ext
  match a with
  | ⟨0, _⟩ => show win2_1.index t (0 : Fin 1) * 128 + 1 * q.val = q.val; rw [e0]; omega

theorem iblk2_2_apply (c : Dev nD) (t : Fin cfg2.N) (q : Fin 128) :
    (iblk2 V c 2 t : Vec Ideal S128 .f32) (ix1 q) = (V c main_v43 : S128.Idx → EReal) (ix1 q) := by
  obtain ⟨-, -, -, e0, -⟩ := blockIdx2 t
  unfold iblk2
  rw [View.read_apply]
  show V c main_v43 _ = V c main_v43 _
  congr 1
  funext a
  apply Fin.ext
  match a with
  | ⟨0, _⟩ => show win2_2.index t (0 : Fin 1) * 128 + 1 * q.val = q.val; rw [e0]; omega

theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v44).slice (win2_3.rect t)).set ↔ _
  rw [View.set_slice_whole, Rect.mem_set_unit]
  exact Iff.rfl

theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e0, e1⟩ := blockIdx2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    rw [e0, ht]; omega
  | ⟨1, _⟩ =>
    show win2_3.index t (1 : Fin 2) * 128 ≤ (i 1).val ∧ (i 1).val < win2_3.index t (1 : Fin 2) * 128 + 128
    rw [e1]; omega

theorem outAt2_eq_pay (c : Dev nD) (t : Fin cfg2.N) :
    outAt2 V c t = k2_pay1 (iblk2 V c 0 t) (iblk2 V c 1 t) (iblk2 V c 2 t) := by
  unfold outAt2 out2_3
  rw [View.canon_unit_zero hz2]
  simp only [View.ld_unit_zero (S := S5000x128) hz2, View.ld_unit_zero (S := S128) hz1]

theorem outAt2_apply (c : Dev nD) (t : Fin cfg2.N) (p : Fin 5000) (q : Fin 128) (n : Fin 100000)
    (hn : n.val = t.val * 5000 + p.val) :
    outAt2 V c t (ix2 p q) = G2 (V c main_v26) (V c main_v41) (V c main_v43) n q := by
  rw [outAt2_eq_pay, k2_pay1_apply]
  unfold G2
  rw [iblk2_0_apply V c t p q n hn, iblk2_1_apply V c t q, iblk2_2_apply V c t q]

def GA2 (c : Dev nD) : S100000x128.Idx → EReal := fun i =>
  G2 (V c main_v26) (V c main_v41) (V c main_v43) (i 0) (i 1)

theorem emb2_3 (t : Fin cfg2.N) (p : Fin 5000) (q : Fin 128) (n : Fin 100000) (hn : n.val = t.val * 5000 + p.val) :
    ((cfg2.win 3).blk t).view.emb (ix2 p q) = (ix2 n q : S100000x128.Idx) := by
  obtain ⟨-, -, -, -, e0, e1⟩ := blockIdx2 t
  funext a
  apply Fin.ext
  match a with
  | ⟨0, _⟩ => show win2_3.index t (0 : Fin 2) * 5000 + 1 * p.val = n.val; rw [e0, hn]; omega
  | ⟨1, _⟩ => show win2_3.index t (1 : Fin 2) * 128 + 1 * q.val = q.val; rw [e1]; omega

theorem flushed2_eq (c : Dev nD) (dat : Dat τ (Elt Ideal) Unit ℕ (UR sig nD τ) ℕ cfg2 c)
    (hout : ∀ t, dat.after 3 t = outAt2 V c t) (t : Fin cfg2.N) :
    dat.flushed 3 t = ((cfg2.win 3).blk t).view.read (Elt Ideal) (GA2 V c) := by
  show (cfg2.win 3).cut (grid2.coords t) (dat.after 3 t) = _
  rw [hout]
  funext y
  obtain ⟨p, q, rfl⟩ : ∃ (p : Fin 5000) (q : Fin 128), y = ix2 p q := ⟨y 0, y 1, eq_ix2 y⟩
  have hN : cfg2.N = 20 := N_2
  have ht : t.val < 20 := hN ▸ t.isLt
  obtain ⟨n, hn⟩ : ∃ n : Fin 100000, n.val = t.val * 5000 + p.val := ⟨⟨t.val * 5000 + p.val, by omega⟩, rfl⟩
  rw [View.read_apply, emb2_3 t p q n hn]
  exact outAt2_apply V c t p q n hn

end Val2

theorem arr2 (c : Dev nD) (dat : Dat τ (Elt Ideal) Unit ℕ (UR sig nD τ) ℕ cfg2 c)
    (hA : ∀ w, dat.A w = V c (Pipeline.arrRef spec2 w)) (hout : ∀ t, dat.after 3 t = outAt2 V c t)
    (n : Fin 100000) (j : Fin 128) :
    dat.arrAt 3 cfg2.N (ix2 n j) = G2 (V c main_v26) (V c main_v41) (V c main_v43) n j := by
  have h := dat.arrAt_eq_of_cover 3 (Val2.GA2 V c) (fun t _ => Val2.flushed2_eq V c dat hout t) Val2.cover2
  exact congrFun h (ix2 n j)

end Cert.KernelIdeal.Hand

end
-- ==== Proof.Val3Pay.lean ====
import proofs.«415688_j20925080666769_1_alg».proof.Proof.Data
import proofs.«415688_j20925080666769_1_alg».proof.Proof.ValSpec
import proofs.«415688_j20925080666769_1_alg».proof.Proof.Val0Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Idealize.ShloMosaic.TcCoe
open Cert.KernelIdeal.Gen
open scoped BigOperators

namespace Val3

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

theorem sitofp_extui_eq (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · subst h
    rw [if_pos rfl]
    have : (IntOp.cmpi .eq x x).setWidth 32 = 1#32 := by simp [IntOp.cmpi]
    rw [this]; norm_num
  · rw [if_neg h]
    have hb : (x == y) = false := by simpa using h
    have : (IntOp.cmpi .eq x y).setWidth 32 = 0#32 := by simp [IntOp.cmpi, hb]
    rw [this]; norm_num

theorem pay6_apply (v : Vec Ideal S5000x1 .i32) (r : Fin 5000) (k : Fin 64) :
    k3_pay6 (F := Ideal) v (ix2 r k) = if v (ix2 r (0 : Fin 1)) = BitVec.ofNat 32 k.val then (1 : EReal) else 0 := by
  unfold k3_pay6
  rw [sitofp_apply, extui_apply]
  show FloatOps.sitofp (F := Ideal) .f32 ((IntOp.cmpi .eq _ _).setWidth 32) = _
  rw [sitofp_extui_eq, iota_single_apply, shapeCast_self, broadcastTo_a1_ab_apply]

theorem colSum_apply (src : FVec Ideal S5000x64 .f32) (h : S5000x64.Reduces [0] S64) (hφ : FKind.Formats .f32)
    (hacc : (0x00000000#32 : BitVec 32) = 0x00000000#32) (k : Fin 64) :
    multiReduction .add [0] S64 src 0x00000000#32 h hφ hacc (ix1 k) = ∑ r : Fin 5000, src (ix2 r k) := by
  refine (Ideal.multiReduction_add_single src 0x00000000#32 h hφ hacc (ix1 k)).trans ?_
  refine Finset.sum_congr rfl fun r _ => congrArg src ?_
  funext a
  match a with
  | ⟨0, _⟩ => rfl
  | ⟨1, _⟩ => rfl

theorem pay7_apply (v : Vec Ideal S5000x1 .i32) (k : Fin 64) (d : Fin 128) :
    k3_pay7 (F := Ideal) v (ix2 k d) = ∑ r : Fin 5000, if v (ix2 r (0 : Fin 1)) = BitVec.ofNat 32 k.val then (1 : EReal) else 0 := by
  unfold k3_pay7
  rw [broadcastTo_a1_ab_apply, shapeCast_self, shapeCast_a_a1_apply, colSum_apply]
  exact Finset.sum_congr rfl fun r _ => pay6_apply v r k

theorem lhs_mmB_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q

theorem lhs_mmB_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl

theorem rhs_mmB_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q

theorem rhs_mmB_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem mmB_apply (x : FVec Ideal S5000x64 .f32) (y : FVec Ideal S5000x128 .f32) (k : Fin 64) (d : Fin 128) :
    matmul dot_S5000x64_S5000x128_S64x128_0_0_1_1_n_n none x y (constant S64x128 .f32 0x00000000#32) (ix2 k d)
      = ∑ r : Fin 5000, x (ix2 r k) * y (ix2 r d) := by
  simp only [matmul]
  rw [Ideal.matmul_constant_zero_apply, ← Equiv.sum_comp (contrEquiv1 dot_S5000x64_S5000x128_S64x128_0_0_1_1_n_n 5000 rfl rfl).symm]
  refine Finset.sum_congr rfl fun r _ => ?_
  have hk := contrEquiv1_symm_val dot_S5000x64_S5000x128_S64x128_0_0_1_1_n_n 5000 rfl rfl r
  have el : dot_S5000x64_S5000x128_S64x128_0_0_1_1_n_n.lhsIdx (ix2 k d) ((contrEquiv1 dot_S5000x64_S5000x128_S64x128_0_0_1_1_n_n 5000 rfl rfl).symm r) = ix2 r k := funext fun a => Fin.ext (by
    match a with
    | ⟨0, _⟩ => exact (lhs_mmB_0 _ _).trans hk
    | ⟨1, _⟩ => exact lhs_mmB_1 _ _)
  have er : dot_S5000x64_S5000x128_S64x128_0_0_1_1_n_n.rhsIdx (ix2 k d) ((contrEquiv1 dot_S5000x64_S5000x128_S64x128_0_0_1_1_n_n 5000 rfl rfl).symm r) = ix2 r d := funext fun a => Fin.ext (by
    match a with
    | ⟨0, _⟩ => exact (rhs_mmB_0 _ _).trans hk
    | ⟨1, _⟩ => exact rhs_mmB_1 _ _)
  rw [el, er]

theorem lhs_mmC_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl

theorem lhs_mmC_1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q

theorem rhs_mmC_0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q

theorem rhs_mmC_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

theorem mmC_apply (x : FVec Ideal S64x128 .f32) (w : FVec Ideal S128x64 .f32) (k : Fin 64) (o : Fin 64) :
    matmul dot_S64x128_S128x64_S64x64_1_0_0_1_n_n none x w (constant S64x64 .f32 0x00000000#32) (ix2 k o)
      = ∑ d : Fin 128, x (ix2 k d) * w (ix2 d o) := by
  simp only [matmul]
  rw [Ideal.matmul_constant_zero_apply, ← Equiv.sum_comp (contrEquiv1 dot_S64x128_S128x64_S64x64_1_0_0_1_n_n 128 rfl rfl).symm]
  refine Finset.sum_congr rfl fun d _ => ?_
  have hk := contrEquiv1_symm_val dot_S64x128_S128x64_S64x64_1_0_0_1_n_n 128 rfl rfl d
  have el : dot_S64x128_S128x64_S64x64_1_0_0_1_n_n.lhsIdx (ix2 k o) ((contrEquiv1 dot_S64x128_S128x64_S64x64_1_0_0_1_n_n 128 rfl rfl).symm d) = ix2 k d := funext fun a => Fin.ext (by
    match a with
    | ⟨0, _⟩ => exact lhs_mmC_0 _ _
    | ⟨1, _⟩ => exact (lhs_mmC_1 _ _).trans hk)
  have er : dot_S64x128_S128x64_S64x64_1_0_0_1_n_n.rhsIdx (ix2 k o) ((contrEquiv1 dot_S64x128_S128x64_S64x64_1_0_0_1_n_n 128 rfl rfl).symm d) = ix2 d o := funext fun a => Fin.ext (by
    match a with
    | ⟨0, _⟩ => exact (rhs_mmC_0 _ _).trans hk
    | ⟨1, _⟩ => exact rhs_mmC_1 _ _)
  rw [el, er]

def tileY (x0 : S5000x128.Idx → EReal) (x1 : S5000x1.Idx → EReal) (w1 : S128x128.Idx → EReal) (b : S128.Idx → EReal)
    (x2 : S5000x128.Idx → EReal) (w2 : S128x128.Idx → EReal) (r : Fin 5000) (d : Fin 128) : EReal :=
  (∑ j : Fin 128, (x0 (ix2 r j) * x1 (ix2 r (0 : Fin 1))) * w1 (ix2 j d)) + b (ix1 d) + ∑ j : Fin 128, x2 (ix2 r j) * w2 (ix2 j d)

def rows3 (v3 : FVec Ideal S5000x128 .f32) (v5 : FVec Ideal S5000x1 .f32) (v9 : FVec Ideal S128x128 .f32) (v12 : FVec Ideal S128 .f32)
    (v16 : FVec Ideal S5000x128 .f32) (v18 : FVec Ideal S128x128 .f32) : FVec Ideal S5000x128 .f32 :=
  addf (addf (matmul dot_S5000x128_S128x128_S5000x128_1_0_0_1_n_n none
      (mulf (shapeCast S5000x128 v3 shapeCasts_S5000x128_S5000x128)
        (broadcastTo S5000x128 (shapeCast S5000x1 v5 shapeCasts_S5000x1_S5000x1) broadcasts_S5000x1_S5000x128))
      (shapeCast S128x128 v9 shapeCasts_S128x128_S128x128) (constant S5000x128 .f32 0x00000000#32))
    (broadcastTo S5000x128 (shapeCast S1x128 v12 shapeCasts_S128_S1x128) broadcasts_S1x128_S5000x128))
    (matmul dot_S5000x128_S128x128_S5000x128_1_0_0_1_n_n none (shapeCast S5000x128 v16 shapeCasts_S5000x128_S5000x128)
      (shapeCast S128x128 v18 shapeCasts_S128x128_S128x128) (constant S5000x128 .f32 0x00000000#32))

theorem rows3_apply (x0 : FVec Ideal S5000x128 .f32) (x1 : FVec Ideal S5000x1 .f32) (w1 : FVec Ideal S128x128 .f32) (b : FVec Ideal S128 .f32)
    (x2 : FVec Ideal S5000x128 .f32) (w2 : FVec Ideal S128x128 .f32) (r : Fin 5000) (d : Fin 128) :
    rows3 x0 x1 w1 b x2 w2 (ix2 r d) = tileY x0 x1 w1 b x2 w2 r d := by
  unfold rows3 tileY
  rw [addf_apply, addf_apply, mm_zero_apply, mm_zero_apply, broadcastTo_1b_ab_apply, shapeCast_a_1a_apply]
  congr 1
  · congr 1
    refine Finset.sum_congr rfl fun j _ => ?_
    rw [mulf_apply, shapeCast_self, shapeCast_self, broadcastTo_a1_ab_apply, shapeCast_self]
  · refine Finset.sum_congr rfl fun j _ => ?_
    rw [shapeCast_self, shapeCast_self]

theorem pay8_eq (x0 : FVec Ideal S5000x128 .f32) (x1 : FVec Ideal S5000x1 .f32) (w1 : FVec Ideal S128x128 .f32) (b : FVec Ideal S128 .f32)
    (x2 : FVec Ideal S5000x128 .f32) (w2 : FVec Ideal S128x128 .f32) (x3 : Vec Ideal S5000x1 .i32) (p : FVec Ideal S64x128 .f32) :
    k3_pay8 (F := Ideal) x0 x1 w1 b x2 w2 x3 p
      = addf p (matmul dot_S5000x64_S5000x128_S64x128_0_0_1_1_n_n none (k3_pay6 (F := Ideal) x3) (rows3 x0 x1 w1 b x2 w2)
          (constant (F := Ideal) S64x128 .f32 0x00000000#32)) := rfl

theorem pay8_apply (x0 : FVec Ideal S5000x128 .f32) (x1 : FVec Ideal S5000x1 .f32) (w1 : FVec Ideal S128x128 .f32) (b : FVec Ideal S128 .f32)
    (x2 : FVec Ideal S5000x128 .f32) (w2 : FVec Ideal S128x128 .f32) (x3 : Vec Ideal S5000x1 .i32) (p : FVec Ideal S64x128 .f32)
    (k : Fin 64) (d : Fin 128) :
    k3_pay8 (F := Ideal) x0 x1 w1 b x2 w2 x3 p (ix2 k d)
      = p (ix2 k d) + ∑ r : Fin 5000, if x3 (ix2 r (0 : Fin 1)) = BitVec.ofNat 32 k.val then tileY x0 x1 w1 b x2 w2 r d else 0 := by
  rw [pay8_eq, addf_apply, mmB_apply]
  congr 1
  refine Finset.sum_congr rfl fun r _ => ?_
  rw [pay6_apply, rows3_apply]
  split
  · exact one_mul _
  · exact zero_mul _

theorem pay1_eq (v : FVec Ideal S64x128 .f32) : k3_pay1 (F := Ideal) v = v := shapeCast_self _ _

theorem pay2_apply (n : FVec Ideal S64x128 .f32) (q : FVec Ideal S64x128 .f32) (k : Fin 64) (d : Fin 128) :
    k3_pay2 (F := Ideal) n q (ix2 k d) = q (ix2 k d) + n (ix2 k d) := by
  unfold k3_pay2
  rw [shapeCast_self, addf_apply]

theorem pay4_apply (i : S64x128.Idx) : k3_pay4 (F := Ideal) i = 0 := by
  unfold k3_pay4
  rw [shapeCast_self, broadcast_apply]
  exact Ideal.ofBits_zero_f32

theorem pay5_apply (i : S64x128.Idx) : k3_pay5 (F := Ideal) i = 0 := by
  unfold k3_pay5
  rw [shapeCast_self, broadcast_apply]
  exact Ideal.ofBits_zero_f32

theorem pay3_apply (p q : FVec Ideal S64x128 .f32) (w : FVec Ideal S128x64 .f32) (b : FVec Ideal S64 .f32) (k o : Fin 64) :
    k3_pay3 (F := Ideal) p q w b (ix2 k o)
      = (∑ d : Fin 128, Ideal.div (p (ix2 k d)) (max (q (ix2 k d)) (Ideal.ofBits .f32 0x3F800000#32)) * w (ix2 d o)) + b (ix1 o) := by
  unfold k3_pay3
  rw [addf_apply, mmC_apply, broadcastTo_1b_ab_apply, shapeCast_a_1a_apply]
  congr 1
  refine Finset.sum_congr rfl fun d _ => ?_
  rw [divf_apply, maximumf_apply, broadcast_apply, shapeCast_self]
  rfl

end Val3

end Cert.KernelIdeal.Hand

end
-- ==== Proof.Val3Blk.lean ====
import proofs.«415688_j20925080666769_1_alg».proof.Proof.Val3Pay
import Mathlib.Algebra.BigOperators.Fin

noncomputable section

namespace Cert.KernelIdeal.Hand

open Idealize.ShloMosaic Idealize.ShloMosaic.ValueIdx Idealize.ShloMosaic.TcCoe
open Idealize.SL Idealize.SL.Sem
open Cert.KernelIdeal.Gen
open scoped BigOperators

namespace Val3

variable (V : (c : Dev nD) → (b : Ref sig .tc) → Buf (Elt Ideal) ((c : Thread nD τ).loc b))

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 1) = 0
    ∧ win3_9.index t (0 : Fin 2) = 0 ∧ win3_9.index t (1 : Fin 2) = 0 :=
  (by decide +kernel : ∀ t : Fin grid3.N, _)

theorem lt20 (t : Fin cfg3.N) : t.val < 20 := by have := t.isLt; have hN : cfg3.N = 20 := N_3; omega

theorem iblk3_0_apply (c : Dev nD) (t : Fin cfg3.N) (r : Fin 5000) (j : Fin 128) (n : Fin 100000) (hn : n.val = 5000 * t.val + r.val) :
    iblk3 V c 0 t (ix2 r j) = V c main_v54 (ix2 n j) := by
  show V c main_v54 (((cfg3.win 0).blk t).view.emb (ix2 r j)) = V c main_v54 (ix2 n j)
  refine congrArg _ (funext fun a => Fin.ext ?_)
  obtain ⟨e0, e1, -⟩ := idx3 t
  match a with
  | ⟨0, _⟩ => show win3_0.index t (0 : Fin 2) * 5000 + 1 * r.val = n.val; omega
  | ⟨1, _⟩ => show win3_0.index t (1 : Fin 2) * 128 + 1 * j.val = j.val; omega

theorem iblk3_1_apply (c : Dev nD) (t : Fin cfg3.N) (r : Fin 5000) (n : Fin 100000) (hn : n.val = 5000 * t.val + r.val) :
    iblk3 V c 1 t (ix2 r (0 : Fin 1)) = V c main_v13 (ix2 n (0 : Fin 1)) := by
  show V c main_v13 (((cfg3.win 1).blk t).view.emb (ix2 r (0 : Fin 1))) = V c main_v13 (ix2 n (0 : Fin 1))
  refine congrArg _ (funext fun a => Fin.ext ?_)
  obtain ⟨-, -, e0, e1, -⟩ := idx3 t
  match a with
  | ⟨0, _⟩ => show win3_1.index t (0 : Fin 2) * 5000 + 1 * r.val = n.val; omega
  | ⟨1, _⟩ => show win3_1.index t (1 : Fin 2) * 1 + 1 * 0 = 0; omega

theorem iblk3_2_apply (c : Dev nD) (t : Fin cfg3.N) (r : Fin 5000) (j : Fin 128) (n : Fin 100000) (hn : n.val = 5000 * t.val + r.val) :
    iblk3 V c 2 t (ix2 r j) = V c main_v44 (ix2 n j) := by
  show V c main_v44 (((cfg3.win 2).blk t).view.emb (ix2 r j)) = V c main_v44 (ix2 n j)
  refine congrArg _ (funext fun a => Fin.ext ?_)
  obtain ⟨-, -, -, -, e0, e1, -⟩ := idx3 t
  match a with
  | ⟨0, _⟩ => show win3_2.index t (0 : Fin 2) * 5000 + 1 * r.val = n.val; omega
  | ⟨1, _⟩ => show win3_2.index t (1 : Fin 2) * 128 + 1 * j.val = j.val; omega

theorem iblk3_3_apply (c : Dev nD) (t : Fin cfg3.N) (r : Fin 5000) (n : Fin 100000) (hn : n.val = 5000 * t.val + r.val) :
    iblk3 V c 3 t (ix2 r (0 : Fin 1)) = V c main_v4 (ix2 n (0 : Fin 1)) := by
  show V c main_v4 (((cfg3.win 3).blk t).view.emb (ix2 r (0 : Fin 1))) = V c main_v4 (ix2 n (0 : Fin 1))
  refine congrArg _ (funext fun a => Fin.ext ?_)
  obtain ⟨-, -, -, -, -, -, e0, e1, -⟩ := idx3 t
  match a with
  | ⟨0, _⟩ => show win3_3.index t (0 : Fin 2) * 5000 + 1 * r.val = n.val; omega
  | ⟨1, _⟩ => show win3_3.index t (1 : Fin 2) * 1 + 1 * 0 = 0; omega

theorem iblk3_4_apply (c : Dev nD) (t : Fin cfg3.N) (j : Fin 128) (d : Fin 128) :
    iblk3 V c 4 t (ix2 j d) = V c main_v55 (ix2 j d) := by
  show V c main_v55 (((cfg3.win 4).blk t).view.emb (ix2 j d)) = V c main_v55 (ix2 j d)
  refine congrArg _ (funext fun a => Fin.ext ?_)
  obtain ⟨-, -, -, -, -, -, -, -, e0, e1, -⟩ := idx3 t
  match a with
  | ⟨0, _⟩ => show win3_4.index t (0 : Fin 2) * 128 + 1 * j.val = j.val; omega
  | ⟨1, _⟩ => show win3_4.index t (1 : Fin 2) * 128 + 1 * d.val = d.val; omega

theorem iblk3_5_apply (c : Dev nD) (t : Fin cfg3.N) (d : Fin 128) :
    iblk3 V c 5 t (ix1 d) = V c main_arg9 (ix1 d) := by
  show V c main_arg9 (((cfg3.win 5).blk t).view.emb (ix1 d)) = V c main_arg9 (ix1 d)
  refine congrArg _ (funext fun a => Fin.ext ?_)
  obtain ⟨-, -, -, -, -, -, -, -, -, -, e0, -⟩ := idx3 t
  match a with
  | ⟨0, _⟩ => show win3_5.index t (0 : Fin 1) * 128 + 1 * d.val = d.val; omega

theorem iblk3_6_apply (c : Dev nD) (t : Fin cfg3.N) (j : Fin 128) (d : Fin 128) :
    iblk3 V c 6 t (ix2 j d) = V c main_v56 (ix2 j d) := by
  show V c main_v56 (((cfg3.win 6).blk t).view.emb (ix2 j d)) = V c main_v56 (ix2 j d)
  refine congrArg _ (funext fun a => Fin.ext ?_)
  obtain ⟨-, -, -, -, -, -, -, -, -, -, -, e0, e1, -⟩ := idx3 t
  match a with
  | ⟨0, _⟩ => show win3_6.index t (0 : Fin 2) * 128 + 1 * j.val = j.val; omega
  | ⟨1, _⟩ => show win3_6.index t (1 : Fin 2) * 128 + 1 * d.val = d.val; omega

theorem iblk3_7_apply (c : Dev nD) (t : Fin cfg3.N) (d : Fin 128) (o : Fin 64) :
    iblk3 V c 7 t (ix2 d o) = V c main_v57 (ix2 d o) := by
  show V c main_v57 (((cfg3.win 7).blk t).view.emb (ix2 d o)) = V c main_v57 (ix2 d o)
  refine congrArg _ (funext fun a => Fin.ext ?_)
  obtain ⟨-, -, -, -, -, -, -, -, -, -, -, -, -, e0, e1, -⟩ := idx3 t
  match a with
  | ⟨0, _⟩ => show win3_7.index t (0 : Fin 2) * 128 + 1 * d.val = d.val; omega
  | ⟨1, _⟩ => show win3_7.index t (1 : Fin 2) * 64 + 1 * o.val = o.val; omega

theorem iblk3_8_apply (c : Dev nD) (t : Fin cfg3.N) (o : Fin 64) :
    iblk3 V c 8 t (ix1 o) = V c main_arg12 (ix1 o) := by
  show V c main_arg12 (((cfg3.win 8).blk t).view.emb (ix1 o)) = V c main_arg12 (ix1 o)
  refine congrArg _ (funext fun a => Fin.ext ?_)
  obtain ⟨-, -, -, -, -, -, -, -, -, -, -, -, -, -, -, e0, -⟩ := idx3 t
  match a with
  | ⟨0, _⟩ => show win3_8.index t (0 : Fin 1) * 64 + 1 * o.val = o.val; omega

theorem stepP3_apply (x0 : FVec Ideal S5000x128 .f32) (x1 : FVec Ideal S5000x1 .f32) (x2 : FVec Ideal S5000x128 .f32)
    (x3 : Vec Ideal S5000x1 .i32) (x4 : FVec Ideal S128x128 .f32) (x5 : FVec Ideal S128 .f32) (x6 : FVec Ideal S128x128 .f32)
    (p : FVec Ideal S64x128 .f32) (k : Fin 64) (d : Fin 128) :
    stepP3 (F := Ideal) x0 x1 x2 x3 x4 x5 x6 p (ix2 k d)
      = p (ix2 k d) + ∑ r : Fin 5000, if x3 (ix2 r (0 : Fin 1)) = BitVec.ofNat 32 k.val then tileY x0 x1 x4 x5 x2 x6 r d else 0 := by
  unfold stepP3
  rw [View.canon_unit_zero hz2, pay1_eq]
  simp only [View.ld_unit_zero (S := S5000x128) hz2, View.ld_unit_zero (S := S5000x1) hz2, View.ld_unit_zero (S := S128x128) hz2,
    View.ld_unit_zero (S := S128) hz1, View.ld_unit_zero (S := S64x128) hz2]
  exact pay8_apply x0 x1 x4 x5 x2 x6 x3 p k d

theorem stepC3_apply (x3 : Vec Ideal S5000x1 .i32) (q : FVec Ideal S64x128 .f32) (k : Fin 64) (d : Fin 128) :
    stepC3 (F := Ideal) x3 q (ix2 k d)
      = q (ix2 k d) + ∑ r : Fin 5000, if x3 (ix2 r (0 : Fin 1)) = BitVec.ofNat 32 k.val then (1 : EReal) else 0 := by
  unfold stepC3
  rw [View.canon_unit_zero hz2]
  simp only [View.ld_unit_zero (S := S5000x1) hz2, View.ld_unit_zero (S := S64x128) hz2]
  rw [pay2_apply, pay7_apply]

end Val3

end Cert.KernelIdeal.Hand

end
-- ==== Proof.Val3Acc.lean ====
import proofs.«415688_j20925080666769_1_alg».proof.Proof.Val3Blk
import Mathlib.Algebra.BigOperators.Fin

noncomputable section

namespace Cert.KernelIdeal.Hand

open Idealize.ShloMosaic Idealize.ShloMosaic.ValueIdx Idealize.ShloMosaic.TcCoe
open Idealize.SL Idealize.SL.Sem
open Cert.KernelIdeal.Gen
open scoped BigOperators

namespace Val3

variable (V : (c : Dev nD) → (b : Ref sig .tc) → Buf (Elt Ideal) ((c : Thread nD τ).loc b))

def sumTerm (c : Dev nD) (k : Fin 64) (d : Fin 128) (n : Fin 100000) : EReal :=
  if V c main_v4 (ix2 n (0 : Fin 1)) = BitVec.ofNat 32 k.val
  then G0 (V c main_v54) (V c main_v13) (V c main_v44) (V c main_v55) (V c main_arg9) (V c main_v56) n d else 0

def countTerm (c : Dev nD) (k : Fin 64) (n : Fin 100000) : EReal :=
  if V c main_v4 (ix2 n (0 : Fin 1)) = BitVec.ofNat 32 k.val then 1 else 0

def extN (f : Fin 100000 → EReal) (n : ℕ) : EReal := if h : n < 100000 then f ⟨n, h⟩ else 0

theorem tileY_congr (x0 : S5000x128.Idx → EReal) (x1 : S5000x1.Idx → EReal) (w1 : S128x128.Idx → EReal) (b : S128.Idx → EReal)
    (x2 : S5000x128.Idx → EReal) (w2 : S128x128.Idx → EReal)
    (A : S100000x128.Idx → EReal) (D : S100000x1.Idx → EReal) (X : S100000x128.Idx → EReal) (WL : S128x128.Idx → EReal)
    (B : S128.Idx → EReal) (WR : S128x128.Idx → EReal) (r : Fin 5000) (d : Fin 128) (n : Fin 100000)
    (h0 : ∀ j : Fin 128, x0 (ix2 r j) = A (ix2 n j)) (h1 : x1 (ix2 r (0 : Fin 1)) = D (ix2 n (0 : Fin 1)))
    (h4 : ∀ j : Fin 128, w1 (ix2 j d) = WL (ix2 j d)) (h5 : b (ix1 d) = B (ix1 d))
    (h2 : ∀ j : Fin 128, x2 (ix2 r j) = X (ix2 n j)) (h6 : ∀ j : Fin 128, w2 (ix2 j d) = WR (ix2 j d)) :
    tileY x0 x1 w1 b x2 w2 r d = G0 A D X WL B WR n d := by
  unfold tileY G0
  rw [h1, h5]
  simp only [h0, h4, h2, h6]

theorem tileY_eq (c : Dev nD) (t : Fin cfg3.N) (r : Fin 5000) (d : Fin 128) (n : Fin 100000) (hn : n.val = 5000 * t.val + r.val) :
    tileY (iblk3 V c 0 t) (iblk3 V c 1 t) (iblk3 V c 4 t) (iblk3 V c 5 t) (iblk3 V c 2 t) (iblk3 V c 6 t) r d
      = G0 (V c main_v54) (V c main_v13) (V c main_v44) (V c main_v55) (V c main_arg9) (V c main_v56) n d :=
  tileY_congr (iblk3 V c 0 t) (iblk3 V c 1 t) (iblk3 V c 4 t) (iblk3 V c 5 t) (iblk3 V c 2 t) (iblk3 V c 6 t)
    (V c main_v54) (V c main_v13) (V c main_v44) (V c main_v55) (V c main_arg9) (V c main_v56) r d n
    (fun j => iblk3_0_apply V c t r j n hn) (iblk3_1_apply V c t r n hn) (fun j => iblk3_4_apply V c t j d)
    (iblk3_5_apply V c t d) (fun j => iblk3_2_apply V c t r j n hn) (fun j => iblk3_6_apply V c t j d)

theorem term_congr {a a' w : BitVec 32} {y y' : EReal} (ha : a = a') (hy : y = y') :
    (if a = w then y else 0) = (if a' = w then y' else 0) := by subst ha hy; rfl

theorem tile_sum (c : Dev nD) (t : Fin cfg3.N) (k : Fin 64) (d : Fin 128) :
    (∑ r : Fin 5000, if iblk3 V c 3 t (ix2 r (0 : Fin 1)) = BitVec.ofNat 32 k.val
        then tileY (iblk3 V c 0 t) (iblk3 V c 1 t) (iblk3 V c 4 t) (iblk3 V c 5 t) (iblk3 V c 2 t) (iblk3 V c 6 t) r d else 0)
      = ∑ r ∈ Finset.range 5000, extN (sumTerm V c k d) (5000 * t.val + r) := by
  refine Eq.trans ?_ (Finset.sum_range _).symm
  refine Finset.sum_congr rfl fun r _ => ?_
  have ht := lt20 t
  have hlt : 5000 * t.val + r.val < 100000 := by have := r.isLt; omega
  refine Eq.trans ?_ (dif_pos hlt).symm
  exact term_congr (iblk3_3_apply V c t r ⟨_, hlt⟩ rfl) (tileY_eq V c t r d ⟨_, hlt⟩ rfl)

theorem tile_count (c : Dev nD) (t : Fin cfg3.N) (k : Fin 64) :
    (∑ r : Fin 5000, if iblk3 V c 3 t (ix2 r (0 : Fin 1)) = BitVec.ofNat 32 k.val then (1 : EReal) else 0)
      = ∑ r ∈ Finset.range 5000, extN (countTerm V c k) (5000 * t.val + r) := by
  refine Eq.trans ?_ (Finset.sum_range _).symm
  refine Finset.sum_congr rfl fun r _ => ?_
  have ht := lt20 t
  have hlt : 5000 * t.val + r.val < 100000 := by have := r.isLt; omega
  refine Eq.trans ?_ (dif_pos hlt).symm
  exact term_congr (iblk3_3_apply V c t r ⟨_, hlt⟩ rfl) rfl

theorem acc3_zero_fst (c : Dev nD) (h : 0 < cfg3.N) (k : Fin 64) (d : Fin 128) :
    (acc3 V c 0 h).1 (ix2 k d) = ∑ r ∈ Finset.range 5000, extN (sumTerm V c k d) (5000 * 0 + r) := by
  show stepP3 (F := Ideal) _ _ _ _ _ _ _ (k3_pay4 (F := Ideal)) (ix2 k d) = _
  refine (stepP3_apply _ _ _ _ _ _ _ _ k d).trans ?_
  refine (congrArg₂ (· + ·) (pay4_apply _) (tile_sum V c ⟨0, h⟩ k d)).trans ?_
  exact zero_add _

theorem acc3_succ_fst (c : Dev nD) (t : ℕ) (h : t + 1 < cfg3.N) (k : Fin 64) (d : Fin 128) :
    (acc3 V c (t + 1) h).1 (ix2 k d)
      = (acc3 V c t (Nat.lt_of_succ_lt h)).1 (ix2 k d) + ∑ r ∈ Finset.range 5000, extN (sumTerm V c k d) (5000 * (t + 1) + r) := by
  show stepP3 (F := Ideal) _ _ _ _ _ _ _ (acc3 V c t (Nat.lt_of_succ_lt h)).1 (ix2 k d) = _
  refine (stepP3_apply _ _ _ _ _ _ _ _ k d).trans ?_
  exact congrArg (fun z : EReal => (acc3 V c t (Nat.lt_of_succ_lt h)).1 (ix2 k d) + z) (tile_sum V c ⟨t + 1, h⟩ k d)

theorem acc3_zero_snd (c : Dev nD) (h : 0 < cfg3.N) (k : Fin 64) (d : Fin 128) :
    (acc3 V c 0 h).2 (ix2 k d) = ∑ r ∈ Finset.range 5000, extN (countTerm V c k) (5000 * 0 + r) := by
  show stepC3 (F := Ideal) _ (k3_pay5 (F := Ideal)) (ix2 k d) = _
  refine (stepC3_apply _ _ k d).trans ?_
  refine (congrArg₂ (· + ·) (pay5_apply _) (tile_count V c ⟨0, h⟩ k)).trans ?_
  exact zero_add _

theorem acc3_succ_snd (c : Dev nD) (t : ℕ) (h : t + 1 < cfg3.N) (k : Fin 64) (d : Fin 128) :
    (acc3 V c (t + 1) h).2 (ix2 k d)
      = (acc3 V c t (Nat.lt_of_succ_lt h)).2 (ix2 k d) + ∑ r ∈ Finset.range 5000, extN (countTerm V c k) (5000 * (t + 1) + r) := by
  show stepC3 (F := Ideal) _ (acc3 V c t (Nat.lt_of_succ_lt h)).2 (ix2 k d) = _
  refine (stepC3_apply _ _ k d).trans ?_
  exact congrArg (fun z : EReal => (acc3 V c t (Nat.lt_of_succ_lt h)).2 (ix2 k d) + z) (tile_count V c ⟨t + 1, h⟩ k)

theorem sum_next (f : ℕ → EReal) (t : ℕ) :
    (∑ n ∈ Finset.range (5000 * (t + 1)), f n) + ∑ r ∈ Finset.range 5000, f (5000 * (t + 1) + r)
      = ∑ n ∈ Finset.range (5000 * (t + 1 + 1)), f n := by
  have e : 5000 * (t + 1) + 5000 = 5000 * (t + 1 + 1) := by omega
  exact (Finset.sum_range_add f (5000 * (t + 1)) 5000).symm.trans (congrArg (fun m => ∑ n ∈ Finset.range m, f n) e)

theorem sum_first (f : ℕ → EReal) :
    ∑ r ∈ Finset.range 5000, f (5000 * 0 + r) = ∑ n ∈ Finset.range (5000 * (0 + 1)), f n :=
  Finset.sum_congr rfl fun r _ => by rw [Nat.mul_zero, Nat.zero_add]

theorem acc3_fst (c : Dev nD) : ∀ (t : ℕ) (h : t < cfg3.N) (k : Fin 64) (d : Fin 128),
    (acc3 V c t h).1 (ix2 k d) = ∑ n ∈ Finset.range (5000 * (t + 1)), extN (sumTerm V c k d) n
  | 0, h, k, d => (acc3_zero_fst V c h k d).trans (sum_first _)
  | t + 1, h, k, d =>
    (acc3_succ_fst V c t h k d).trans
      ((congrArg (fun z : EReal => z + ∑ r ∈ Finset.range 5000, extN (sumTerm V c k d) (5000 * (t + 1) + r))
        (acc3_fst c t (Nat.lt_of_succ_lt h) k d)).trans (sum_next _ t))

theorem acc3_snd (c : Dev nD) : ∀ (t : ℕ) (h : t < cfg3.N) (k : Fin 64) (d : Fin 128),
    (acc3 V c t h).2 (ix2 k d) = ∑ n ∈ Finset.range (5000 * (t + 1)), extN (countTerm V c k) n
  | 0, h, k, d => (acc3_zero_snd V c h k d).trans (sum_first _)
  | t + 1, h, k, d =>
    (acc3_succ_snd V c t h k d).trans
      ((congrArg (fun z : EReal => z + ∑ r ∈ Finset.range 5000, extN (countTerm V c k) (5000 * (t + 1) + r))
        (acc3_snd c t (Nat.lt_of_succ_lt h) k d)).trans (sum_next _ t))

theorem sum_extN (f : Fin 100000 → EReal) : ∑ n ∈ Finset.range 100000, extN f n = ∑ n : Fin 100000, f n := by
  rw [Finset.sum_range]
  refine Finset.sum_congr rfl fun n _ => ?_
  unfold extN
  rw [dif_pos n.isLt]

theorem acc3_sums (c : Dev nD) (h : 19 < cfg3.N) (k : Fin 64) (d : Fin 128) :
    (acc3 V c 19 h).1 (ix2 k d)
      = groupSum (V c main_v4) (G0 (V c main_v54) (V c main_v13) (V c main_v44) (V c main_v55) (V c main_arg9) (V c main_v56)) k d := by
  refine (acc3_fst V c 19 h k d).trans ?_
  exact sum_extN _

theorem acc3_counts (c : Dev nD) (h : 19 < cfg3.N) (k : Fin 64) (d : Fin 128) :
    (acc3 V c 19 h).2 (ix2 k d) = groupCount (V c main_v4) k := by
  refine (acc3_snd V c 19 h k d).trans ?_
  exact sum_extN _

end Val3

end Cert.KernelIdeal.Hand

end
-- ==== Proof.Val3.lean ====
import proofs.«415688_j20925080666769_1_alg».proof.Proof.Val3Acc

noncomputable section

namespace Cert.KernelIdeal.Hand

open Idealize.ShloMosaic Idealize.ShloMosaic.ValueIdx Idealize.ShloMosaic.TcCoe
open Idealize.SL Idealize.SL.Sem
open Idealize.ShloMosaic.Pipeline (Dat)
open Cert.KernelIdeal.Gen
open scoped BigOperators

namespace Val3

variable (V : (c : Dev nD) → (b : Ref sig .tc) → Buf (Elt Ideal) ((c : Thread nD τ).loc b))

theorem out3_9_apply (p q : FVec Ideal S64x128 .f32) (x7 : FVec Ideal S128x64 .f32) (x8 : FVec Ideal S64 .f32) (k o : Fin 64) :
    out3_9 (F := Ideal) p q x7 x8 (ix2 k o)
      = (∑ d : Fin 128, Ideal.div (p (ix2 k d)) (max (q (ix2 k d)) (Ideal.ofBits .f32 0x3F800000#32)) * x7 (ix2 d o)) + x8 (ix1 o) := by
  unfold out3_9
  rw [View.canon_unit_zero hz2]
  simp only [View.ld_unit_zero (S := S64x128) hz2, View.ld_unit_zero (S := S128x64) hz2, View.ld_unit_zero (S := S64) hz1]
  exact pay3_apply p q x7 x8 k o

theorem result_congr (p q : S64x128.Idx → EReal) (x7 : S128x64.Idx → EReal) (x8 : S64.Idx → EReal)
    (bcol : S100000x1.Idx → BitVec 32) (Y : Fin 100000 → Fin 128 → EReal) (FW : S128x64.Idx → EReal) (FB : S64.Idx → EReal) (k o : Fin 64)
    (hp : ∀ d : Fin 128, p (ix2 k d) = groupSum bcol Y k d) (hq : ∀ d : Fin 128, q (ix2 k d) = groupCount bcol k)
    (h7 : ∀ d : Fin 128, x7 (ix2 d o) = FW (ix2 d o)) (h8 : x8 (ix1 o) = FB (ix1 o)) :
    (∑ d : Fin 128, Ideal.div (p (ix2 k d)) (max (q (ix2 k d)) (Ideal.ofBits .f32 0x3F800000#32)) * x7 (ix2 d o)) + x8 (ix1 o)
      = (∑ d : Fin 128, Ideal.div (groupSum bcol Y k d) (max (groupCount bcol k) (Ideal.ofBits .f32 0x3F800000#32)) * FW (ix2 d o))
          + FB (ix1 o) := by
  rw [h8]
  simp only [hp, hq, h7]

theorem outAt3_apply (c : Dev nD) (t : Fin cfg3.N) (ht : t.val = 19) (k o : Fin 64) :
    outAt3 V c t (ix2 k o)
      = G3 (V c main_v54) (V c main_v13) (V c main_v44) (V c main_v4) (V c main_v55) (V c main_arg9) (V c main_v56) (V c main_v57)
          (V c main_arg12) k o := by
  obtain ⟨tv, hl⟩ := t
  obtain rfl : tv = 19 := ht
  show out3_9 (F := Ideal) (acc3 V c 19 hl).1 (acc3 V c 19 hl).2 (iblk3 V c 7 ⟨19, hl⟩) (iblk3 V c 8 ⟨19, hl⟩) (ix2 k o) = _
  refine (out3_9_apply _ _ _ _ k o).trans ?_
  exact result_congr (acc3 V c 19 hl).1 (acc3 V c 19 hl).2 (iblk3 V c 7 ⟨19, hl⟩) (iblk3 V c 8 ⟨19, hl⟩) (V c main_v4)
    (G0 (V c main_v54) (V c main_v13) (V c main_v44) (V c main_v55) (V c main_arg9) (V c main_v56)) (V c main_v57) (V c main_arg12) k o
    (fun d => acc3_sums V c hl k d) (fun d => acc3_counts V c hl k d) (fun d => iblk3_7_apply V c ⟨19, hl⟩ d o)
    (iblk3_8_apply V c ⟨19, hl⟩ o)

def G3arr (c : Dev nD) : S64x64.Idx → EReal := fun i =>
  G3 (V c main_v54) (V c main_v13) (V c main_v44) (V c main_v4) (V c main_v55) (V c main_arg9) (V c main_v56) (V c main_v57)
    (V c main_arg12) (i 0) (i 1)

def t19 : Fin cfg3.N := ⟨19, by rw [show cfg3.N = 20 from N_3]; decide⟩

theorem flush3_9_val (t : Fin cfg3.N) (hf : (cfg3.win 9).flush t = true) : t.val = 19 := by
  have h1 := (flush3_9 t).mp hf
  have h2 := lt20 t
  omega

end Val3

open Val3

variable (V : (c : Dev nD) → (b : Ref sig .tc) → Buf (Elt Ideal) ((c : Thread nD τ).loc b))

theorem arr3 (c : Dev nD) (dat : Dat τ (Elt Ideal) Unit ℕ (UR sig nD τ) ℕ cfg3 c) (hA : ∀ w, dat.A w = V c (Pipeline.arrRef spec3 w)) (hout : ∀ t, dat.after 9 t = outAt3 V c t) (k : Fin 64) (o : Fin 64) :
      dat.arrAt 9 cfg3.N (ix2 k o) = G3 (V c main_v54) (V c main_v13) (V c main_v44) (V c main_v4) (V c main_v55) (V c main_arg9) (V c main_v56) (V c main_v57) (V c main_arg12) k o := by
  have hG : ∀ t, (cfg3.win 9).flush t = true → dat.flushed 9 t = ((cfg3.win 9).blk t).view.read (Elt Ideal) (G3arr V c) := by
    intro t hf
    show (cfg3.win 9).cut (grid3.coords t) (dat.after 9 t) = _
    rw [hout]
    funext j
    show outAt3 V c t j = G3arr V c (((cfg3.win 9).blk t).view.emb j)
    have he : ((cfg3.win 9).blk t).view.emb j = (ix2 (j 0) (j 1) : S64x64.Idx) := funext fun a => Fin.ext (by
      obtain ⟨-, -, -, -, -, -, -, -, -, -, -, -, -, -, -, -, e0, e1⟩ := idx3 t
      match a with
      | ⟨0, _⟩ => show win3_9.index t (0 : Fin 2) * 64 + 1 * (j 0).val = (j 0).val; omega
      | ⟨1, _⟩ => show win3_9.index t (1 : Fin 2) * 64 + 1 * (j 1).val = (j 1).val; omega)
    rw [he]
    refine (congrArg (outAt3 V c t) (eq_ix2 j)).trans ?_
    exact outAt3_apply V c t (flush3_9_val t hf) (j 0) (j 1)
  have hcover : ∀ i : S64x64.Idx, ∃ t : Fin cfg3.N, (cfg3.win 9).flush t = true ∧ i ∈ ((cfg3.win 9).blk t).view.set := fun i => by
    refine ⟨t19, (flush3_9 t19).mpr rfl, ?_⟩
    show i ∈ ((View.whole main_v58).slice (win3_9.rect t19)).set
    rw [View.set_slice_whole, Rect.mem_set_unit]
    intro a
    obtain ⟨-, -, -, -, -, -, -, -, -, -, -, -, -, -, -, -, e0, e1⟩ := idx3 t19
    have h0 : (i 0).val < 64 := (i 0).isLt
    have h1 : (i 1).val < 64 := (i 1).isLt
    match a with
    | ⟨0, _⟩ => show win3_9.index t19 (0 : Fin 2) * 64 ≤ (i 0).val ∧ (i 0).val < win3_9.index t19 (0 : Fin 2) * 64 + 64; omega
    | ⟨1, _⟩ => show win3_9.index t19 (1 : Fin 2) * 64 ≤ (i 1).val ∧ (i 1).val < win3_9.index t19 (1 : Fin 2) * 64 + 64; omega
  exact congrFun (dat.arrAt_eq_of_cover 9 (G3arr V c) hG hcover) (ix2 k o)

end Cert.KernelIdeal.Hand

end
-- ==== Proof.KAssemble.lean ====
import proofs.«415688_j20925080666769_1_alg».proof.Proof.KAssembleSteps
import proofs.«415688_j20925080666769_1_alg».proof.Proof.FrameHalves
import proofs.«415688_j20925080666769_1_alg».proof.Proof.Val0
import proofs.«415688_j20925080666769_1_alg».proof.Proof.Val1
import proofs.«415688_j20925080666769_1_alg».proof.Proof.Val2
import proofs.«415688_j20925080666769_1_alg».proof.Proof.Val3

noncomputable section

namespace Cert.KernelIdeal.Hand

open Idealize.ShloMosaic Idealize.ShloMosaic.TcCoe Idealize.ShloMosaic.ValueIdx
open Idealize.SL Idealize.SL.Sem
open Cert.KernelIdeal.Gen

theorem o2_eq (m : (ℓ : Loc nD τ sig) → Buf (Elt Ideal) ℓ) (c : Dev nD) :
    o2 half0 m c = kO2 (m ((c : Thread nD τ).loc main_arg0)) (m ((c : Thread nD τ).loc main_arg1)) (m ((c : Thread nD τ).loc main_arg3)) (m ((c : Thread nD τ).loc main_arg4)) (m ((c : Thread nD τ).loc main_arg5)) :=
  o2_step half0 m c fun n j =>
    arr0 (fun c b => X1 m c b) c (half0.dat (fun c b => X1 m c b) c) (half0.hA _ c) (fun t => after0_6 _ c t) n j

theorem o3_eq (m : (ℓ : Loc nD τ sig) → Buf (Elt Ideal) ℓ) (c : Dev nD) :
    o3 half0 half1 m c = kO3 (m ((c : Thread nD τ).loc main_arg0)) (m ((c : Thread nD τ).loc main_arg1)) (m ((c : Thread nD τ).loc main_arg3)) (m ((c : Thread nD τ).loc main_arg4)) (m ((c : Thread nD τ).loc main_arg5)) :=
  o3_step half0 half1 m c (o2_eq m c) fun r j =>
    arr1 (fun c b => X2 half0 m c b) c (half1.dat (fun c b => X2 half0 m c b) c) (half1.hA _ c) (fun t => after1_1 _ c t) r j

theorem o5_eq (m : (ℓ : Loc nD τ sig) → Buf (Elt Ideal) ℓ) (c : Dev nD) :
    o5 half0 half1 half2 m c = kO5 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  o5_step half0 half1 half2 half3 m c (o2_eq m c) (o3_eq m c) fun n j =>
    arr2 (fun c b => X4 half0 half1 m c b) c (half2.dat (fun c b => X4 half0 half1 m c b) c) (half2.hA _ c)
      (fun t => after2_3 _ c t) n j

theorem o7_eq (m : (ℓ : Loc nD τ sig) → Buf (Elt Ideal) ℓ) (c : Dev nD) :
    o7 half0 half1 half2 half3 m c = kO7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  o7_step half0 half1 half2 half3 m c (o5_eq m c) fun k o =>
    arr3 (fun c b => X6 half0 half1 half2 m c b) c (half3.dat (fun c b => X6 half0 half1 half2 m c b) c) (half3.hA _ c)
      (fun t => after3_9 _ c t) k o

end Cert.KernelIdeal.Hand
-- ==== Proof.Finite.lean ====
import proofs.«415688_j20925080666769_1_alg».proof.Defs
import proofs.«415688_j20925080666769_1_alg».proof.Proof.Gen.Pre_finite_inputs
import proofs.«415688_j20925080666769_1_alg».proof.Proof.Gen.KernelIdeal
import Idealize.ShloMosaic.Lib.ReduceAll
import Idealize.ShloMosaic.Lib.IdealHost
import Idealize.ShloMosaic.Lib.ValueIdx
import Idealize.ShloMosaic.PureOps.Ideal

noncomputable section

namespace Cert.Proof.Finite

open Idealize.ShloMosaic Idealize.ShloMosaic.ValueIdx Idealize.SL.Sem
open Cert.Pre_finite_inputs

instance : Subsingleton (S_).Idx := ⟨fun a b => funext fun d => d.elim0⟩

theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem reals_of_all {S : Shape} {axes : List (Fin S.rank)} (x : FVec Ideal S .f32)
    (hb : S_.BroadcastsInDim S (![] : Fin 0 → Fin S.rank)) (hr : S.ReducesTo axes S_) (hu : 0 < S_.numel)
    (init : IVec S_ 1) (j : S_.Idx)
    (e : Host.reduce IntOp.andi (cmpf .olt (Host.absf x) (broadcastInDim S ![] hb (constant S_ .f32 0x7F800000#32))) init hr hu j = 1#1) :
    ∀ i, ∃ r : ℝ, x i = (r : EReal) := fun i => by
  have h := Host.reduce_andi_all _ init hr hu j e i
  rw [cmpf_apply, broadcastInDim_scalar_apply, constant_apply] at h
  exact real_of_abs_lt_top (x i) h

theorem andi_apply_eq_one (a b : IVec S_ 1) (j : S_.Idx) : andi a b j = 1#1 ↔ a j = 1#1 ∧ b j = 1#1 :=
  IntOp.andi_eq_one

theorem reals_of_fn (a0 : FVec Ideal S100000x128 .f32) (a1 : IVec S2x1600000 32) (a2 : IVec S100000 32) (a3 : FVec Ideal S128x128 .f32)
    (a4 : FVec Ideal S128 .f32) (a5 : FVec Ideal S128x128 .f32) (a6 : FVec Ideal S128 .f32) (a7 : FVec Ideal S128 .f32)
    (a8 : FVec Ideal S128x128 .f32) (a9 : FVec Ideal S128 .f32) (a10 : FVec Ideal S128x128 .f32) (a11 : FVec Ideal S64x128 .f32)
    (a12 : FVec Ideal S64 .f32)
    (h : Cert.Pre_finite_inputs.fn (F := Ideal) a0 a1 a2 a3 a4 a5 a6 a7 a8 a9 a10 a11 a12 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) ∧ (∀ i, ∃ r : ℝ, a12 i = (r : EReal)) := by
  have h := congrFun h ix0
  dsimp only [Cert.Pre_finite_inputs.fn, fn_part1, fn_part2, fn_part3] at h
  simp only [andi_apply_eq_one] at h
  obtain ⟨⟨⟨⟨⟨⟨⟨⟨⟨⟨h0, h3⟩, h4⟩, h5⟩, h6⟩, h7⟩, h8⟩, h9⟩, h10⟩, h11⟩, h12⟩ := h
  exact ⟨reals_of_all a0 _ _ _ _ ix0 h0, reals_of_all a3 _ _ _ _ ix0 h3, reals_of_all a4 _ _ _ _ ix0 h4,
    reals_of_all a5 _ _ _ _ ix0 h5, reals_of_all a6 _ _ _ _ ix0 h6, reals_of_all a7 _ _ _ _ ix0 h7,
    reals_of_all a8 _ _ _ _ ix0 h8, reals_of_all a9 _ _ _ _ ix0 h9, reals_of_all a10 _ _ _ _ ix0 h10,
    reals_of_all a11 _ _ _ _ ix0 h11, reals_of_all a12 _ _ _ _ ix0 h12⟩

theorem reals_of_pre (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg3) i = ((r : ℝ) : EReal))
    ∧ (∀ i, ∃ r : ℝ, m ((c.tc : Thread Cert.KernelIdeal.nD Cert.KernelIdeal.τ).loc Cert.KernelIdeal.main_arg4) i = ((r : ℝ) : EReal))
    ∧ (∀ i, ∃ r : ℝ, m ((c.tc : Thread Cert.KernelIdeal.nD Cert.KernelIdeal.τ).loc Cert.KernelIdeal.main_arg5) i = ((r : ℝ) : EReal))
    ∧ (∀ i, ∃ r : ℝ, m ((c.tc : Thread Cert.KernelIdeal.nD Cert.KernelIdeal.τ).loc Cert.KernelIdeal.main_arg6) i = ((r : ℝ) : EReal))
    ∧ (∀ i, ∃ r : ℝ, m ((c.tc : Thread Cert.KernelIdeal.nD Cert.KernelIdeal.τ).loc Cert.KernelIdeal.main_arg7) i = ((r : ℝ) : EReal))
    ∧ (∀ i, ∃ r : ℝ, m ((c.tc : Thread Cert.KernelIdeal.nD Cert.KernelIdeal.τ).loc Cert.KernelIdeal.main_arg8) i = ((r : ℝ) : EReal))
    ∧ (∀ i, ∃ r : ℝ, m ((c.tc : Thread Cert.KernelIdeal.nD Cert.KernelIdeal.τ).loc Cert.KernelIdeal.main_arg9) i = ((r : ℝ) : EReal))
    ∧ (∀ i, ∃ r : ℝ, m ((c.tc : Thread Cert.KernelIdeal.nD Cert.KernelIdeal.τ).loc Cert.KernelIdeal.main_arg10) i = ((r : ℝ) : EReal))
    ∧ (∀ i, ∃ r : ℝ, m ((c.tc : Thread Cert.KernelIdeal.nD Cert.KernelIdeal.τ).loc Cert.KernelIdeal.main_arg11) i = ((r : ℝ) : EReal))
    ∧ (∀ i, ∃ r : ℝ, m ((c.tc : Thread Cert.KernelIdeal.nD Cert.KernelIdeal.τ).loc Cert.KernelIdeal.main_arg12) i = ((r : ℝ) : EReal)) :=
  reals_of_fn _ _ _ _ _ _ _ _ _ _ _ _ _ (hpre c)

end Cert.Proof.Finite

end
-- ==== Proof.Spec.lean ====
import Mathlib.Analysis.SpecialFunctions.Pow.Real
import Mathlib.Algebra.BigOperators.Group.Finset.Basic
import Mathlib.Data.EReal.Inv

noncomputable section

namespace GraphSpec

open scoped BigOperators

variable {N E C D G O : ℕ}

def agg (gi : Fin E → Fin N) (hit : Fin E → Fin N → Prop) [∀ e n, Decidable (hit e n)]
    (X : Fin N → Fin C → ℝ) (n : Fin N) (j : Fin C) : ℝ :=
  ∑ e : Fin E, if hit e n then X (gi e) j else 0

def deg (hit : Fin E → Fin N → Prop) [∀ e n, Decidable (hit e n)] (n : Fin N) : ℝ :=
  ∑ e : Fin E, if hit e n then (1 : ℝ) else 0

def conv (gi : Fin E → Fin N) (hit : Fin E → Fin N → Prop) [∀ e n, Decidable (hit e n)]
    (X : Fin N → Fin C → ℝ) (wl : Fin D → Fin C → ℝ) (b : Fin D → ℝ) (wr : Fin D → Fin C → ℝ)
    (n : Fin N) (j : Fin D) : ℝ :=
  (∑ k : Fin C, (agg gi hit X n k / max (deg hit n) 1) * wl j k) + b j + ∑ k : Fin C, X n k * wr j k

def mean (nn : ℝ) (H : Fin N → Fin C → ℝ) (j : Fin C) : ℝ := (∑ n : Fin N, H n j) / nn

def var (nn : ℝ) (H : Fin N → Fin C → ℝ) (j : Fin C) : ℝ :=
  (∑ n : Fin N, (H n j - mean nn H j) * (H n j - mean nn H j)) / nn

def bnrelu (nn eps : ℝ) (H : Fin N → Fin C → ℝ) (g be : Fin C → ℝ) (n : Fin N) (j : Fin C) : ℝ :=
  max (((H n j - mean nn H j) * (Real.sqrt (var nn H j + eps))⁻¹) * g j + be j) 0

def pooled (bhit : Fin N → Fin G → Prop) [∀ n k, Decidable (bhit n k)] (H : Fin N → Fin C → ℝ)
    (k : Fin G) (d : Fin C) : ℝ :=
  ∑ n : Fin N, if bhit n k then H n d else 0

def cnt (bhit : Fin N → Fin G → Prop) [∀ n k, Decidable (bhit n k)] (k : Fin G) : ℝ :=
  ∑ n : Fin N, if bhit n k then (1 : ℝ) else 0

def head (P : Fin G → Fin C → ℝ) (cn : Fin G → ℝ) (fw : Fin O → Fin C → ℝ) (fb : Fin O → ℝ)
    (k : Fin G) (o : Fin O) : ℝ :=
  (∑ d : Fin C, (P k d / max (cn k) 1) * fw o d) + fb o

def net (gi : Fin E → Fin N) (hit : Fin E → Fin N → Prop) [∀ e n, Decidable (hit e n)]
    (bhit : Fin N → Fin G → Prop) [∀ n k, Decidable (bhit n k)] (nn eps : ℝ)
    (x : Fin N → Fin C → ℝ) (w1l : Fin C → Fin C → ℝ) (b1l : Fin C → ℝ) (w1r : Fin C → Fin C → ℝ)
    (g be : Fin C → ℝ) (w2l : Fin C → Fin C → ℝ) (b2l : Fin C → ℝ) (w2r : Fin C → Fin C → ℝ)
    (fw : Fin O → Fin C → ℝ) (fb : Fin O → ℝ) (k : Fin G) (o : Fin O) : ℝ :=
  head (pooled bhit (conv gi hit (bnrelu nn eps (conv gi hit x w1l b1l w1r) g be) w2l b2l w2r)) (cnt bhit) fw fb k o

theorem var_eq (H : Fin N → Fin C → ℝ) (j : Fin C) (hN : (N : ℝ) ≠ 0) :
    var (N : ℝ) H j = (∑ n : Fin N, H n j * H n j) / (N : ℝ) - mean (N : ℝ) H j * mean (N : ℝ) H j := by
  unfold var
  have h1 : ∀ n : Fin N, (H n j - mean (N : ℝ) H j) * (H n j - mean (N : ℝ) H j)
      = H n j * H n j - 2 * mean (N : ℝ) H j * H n j + mean (N : ℝ) H j * mean (N : ℝ) H j := fun n => by ring
  simp only [h1, Finset.sum_add_distrib, Finset.sum_sub_distrib, ← Finset.mul_sum, Finset.sum_const,
    Finset.card_univ, Fintype.card_fin, nsmul_eq_mul]
  have hs : (∑ n : Fin N, H n j) = mean (N : ℝ) H j * (N : ℝ) := by unfold mean; field_simp
  rw [hs]; field_simp; ring

theorem bnrelu_folded (eps : ℝ) (H : Fin N → Fin C → ℝ) (g be : Fin C → ℝ) (n : Fin N) (j : Fin C)
    (hN : (N : ℝ) ≠ 0) :
    max (H n j * ((Real.sqrt ((∑ n : Fin N, H n j * H n j) / (N : ℝ)
          - (∑ n : Fin N, H n j) / (N : ℝ) * ((∑ n : Fin N, H n j) / (N : ℝ)) + eps))⁻¹ * g j)
        + (be j - (∑ n : Fin N, H n j) / (N : ℝ)
            * ((Real.sqrt ((∑ n : Fin N, H n j * H n j) / (N : ℝ)
              - (∑ n : Fin N, H n j) / (N : ℝ) * ((∑ n : Fin N, H n j) / (N : ℝ)) + eps))⁻¹ * g j))) 0
      = bnrelu (N : ℝ) eps H g be n j := by
  unfold bnrelu
  rw [var_eq H j hN]
  unfold mean
  congr 1
  ring

theorem var_nonneg (nn : ℝ) (hnn : 0 ≤ nn) (H : Fin N → Fin C → ℝ) (j : Fin C) : 0 ≤ var nn H j := by
  unfold var
  exact div_nonneg (Finset.sum_nonneg fun n _ => mul_self_nonneg _) hnn

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end GraphSpec

end
-- ==== Proof.LibEdgeAgg.lean ====
import Idealize.ShloMosaic.PureOps
import Idealize.ShloMosaic.PureOps.Ideal
import Idealize.ShloMosaic.Lib.ValueIdx

noncomputable section

namespace EdgeAgg

open Idealize.ShloMosaic Idealize.ShloMosaic.ValueIdx
open scoped BigOperators

variable {α : Type}

abbrev lookupDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

def clampTo (N : Nat) (hN : 0 < N) {w : Nat} (v : BitVec w) : Fin N := ⟨min v.toInt.toNat (N - 1), by omega⟩

theorem lookup_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (rows : IVec ⟨2, ![P, 1]⟩ w) (e : Fin P) (q : Fin C) :
    Host.gather (lookupDims N C P wf) x rows (ix2 e q) = x (ix2 (clampTo N hN (rows (ix2 e (0 : Fin 1)))) q) := by
  unfold Host.gather
  congr 1
  funext a
  refine Fin.ext ?_
  match a with
  | ⟨0, _⟩ =>
    show (lookupDims N C P wf).start (ix2 e q) rows 0 + (lookupDims N C P wf).batchCoord (ix2 e q) 0
      + (lookupDims N C P wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (lookupDims N C P wf).startIndexMap from List.mem_singleton.mpr rfl)]
    have hsi : (lookupDims N C P wf).siIdx (ix2 e q) ⟨List.idxOf (0 : Fin 2) (lookupDims N C P wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (lookupDims N C P wf).start (ix2 e q) rows 1 + (lookupDims N C P wf).batchCoord (ix2 e q) 1
      + (lookupDims N C P wf).offCoord (ix2 e q) 1 = q.val
    rw [GatherDims.batchCoord_eq_zero _ _ _ List.not_mem_nil]
    unfold GatherDims.start
    rw [dif_neg (show ¬ (1 : Fin 2) ∈ (lookupDims N C P wf).startIndexMap from
      (show ¬ (1 : Fin 2) ∈ ([0] : List (Fin 2)) by decide))]
    unfold GatherDims.offCoord
    rw [dif_pos (show (1 : Fin 2) ∈ (lookupDims N C P wf).sKept from
      (GatherDims.mem_sKept _ _).mpr ⟨(show ¬ (1 : Fin 2) ∈ ([0] : List (Fin 2)) by decide), List.not_mem_nil⟩)]
    simp only [Nat.zero_add, Nat.add_zero]
    rfl

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have ha := h a
      rw [← e']
      exact (Int.toNat_of_nonneg ha.1).symm
    · intro e
      congr 1
      funext a
      refine Fin.ext ?_
      show (d.start j idx a + (d.window j a : Int)).toNat = (i a).val
      rw [e a]
      exact Int.toNat_natCast _
  · rename_i h
    constructor
    · intro e; cases e
    · intro e
      exfalso
      refine h fun a => ?_
      rw [e a]
      exact ⟨Int.natCast_nonneg _, by exact_mod_cast (i a).isLt⟩

abbrev accumDims (N C P : Nat)
    (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

section Accum

variable {N C P w : Nat} (wf : ScatterDims.WF ⟨2, ![N, C]⟩ ⟨2, ![P, 1]⟩ ⟨2, ![P, C]⟩ [1] [0] [0] 1)
  (dst : IVec ⟨2, ![P, 1]⟩ w)

theorem accum_start_row (e : Fin P) (c : Fin C) :
    (accumDims N C P wf).start (ix2 e c) dst 0 = (dst (ix2 e (0 : Fin 1))).toInt := by
  unfold ScatterDims.start
  rw [dif_pos (show (0 : Fin 2) ∈ (accumDims N C P wf).scatterDimsToOperandDims from List.mem_singleton.mpr rfl)]
  congr 2
  funext b; refine Fin.ext ?_
  match b with
  | ⟨0, _⟩ => rfl
  | ⟨1, _⟩ => rfl

theorem accum_start_col (e : Fin P) (c : Fin C) : (accumDims N C P wf).start (ix2 e c) dst 1 = 0 := by
  unfold ScatterDims.start
  rw [dif_neg (show ¬ (1 : Fin 2) ∈ (accumDims N C P wf).scatterDimsToOperandDims from
    (show ¬ (1 : Fin 2) ∈ ([0] : List (Fin 2)) by decide))]

theorem accum_window_row (e : Fin P) (c : Fin C) : (accumDims N C P wf).window (ix2 e c) 0 = 0 := by
  unfold ScatterDims.window
  rw [dif_neg (show ¬ (0 : Fin 2) ∈ (accumDims N C P wf).sKept from by simp [ScatterDims.sKept, Shape.kept])]

theorem accum_window_col (e : Fin P) (c : Fin C) : (accumDims N C P wf).window (ix2 e c) 1 = c.val := by
  unfold ScatterDims.window
  rw [dif_pos (show (1 : Fin 2) ∈ (accumDims N C P wf).sKept from by simp [ScatterDims.sKept, Shape.kept])]
  rfl

theorem accum_lands_iff (e : Fin P) (c : Fin C) (n : Fin N) (q : Fin C) :
    (accumDims N C P wf).resultIdx? (ix2 e c) dst = some (ix2 n q)
      ↔ (dst (ix2 e (0 : Fin 1))).toInt = (n.val : Int) ∧ c = q := by
  rw [resultIdx?_eq_some_iff]
  constructor
  · intro h
    have h0 : (accumDims N C P wf).start (ix2 e c) dst 0 + ((accumDims N C P wf).window (ix2 e c) 0 : Int)
        = (n.val : Int) := h 0
    have h1 : (accumDims N C P wf).start (ix2 e c) dst 1 + ((accumDims N C P wf).window (ix2 e c) 1 : Int)
        = (q.val : Int) := h 1
    rw [accum_start_row, accum_window_row] at h0
    rw [accum_start_col, accum_window_col] at h1
    refine ⟨by simpa using h0, Fin.ext ?_⟩
    omega
  · rintro ⟨h0, rfl⟩ a
    match a with
    | ⟨0, _⟩ =>
      show (accumDims N C P wf).start (ix2 e c) dst 0 + ((accumDims N C P wf).window (ix2 e c) 0 : Int) = (n.val : Int)
      rw [accum_start_row, accum_window_row, h0]; simp
    | ⟨1, _⟩ =>
      show (accumDims N C P wf).start (ix2 e c) dst 1 + ((accumDims N C P wf).window (ix2 e c) 1 : Int) = (c.val : Int)
      rw [accum_start_col, accum_window_col]; simp

theorem accum_apply (acc : (⟨2, ![N, C]⟩ : Shape).Idx → EReal) (upd : (⟨2, ![P, C]⟩ : Shape).Idx → EReal)
    (n : Fin N) (q : Fin C) :
    Ideal.hostScatterAdd (accumDims N C P wf) acc dst upd (ix2 n q)
      = acc (ix2 n q) + ∑ e ∈ Finset.univ.filter (fun e : Fin P => (dst (ix2 e (0 : Fin 1))).toInt = (n.val : Int)),
          upd (ix2 e q) := by
  unfold Ideal.hostScatterAdd
  congr 1
  rw [Finset.sum_filter, sum_idx2, Finset.sum_filter]
  refine Finset.sum_congr rfl fun e _ => ?_
  by_cases he : (dst (ix2 e (0 : Fin 1))).toInt = (n.val : Int)
  · rw [if_pos he]
    rw [Finset.sum_eq_single q]
    · rw [if_pos ((accum_lands_iff wf dst e q n q).mpr ⟨he, rfl⟩)]
    · intro c _ hc
      rw [if_neg (fun h => hc ((accum_lands_iff wf dst e c n q).mp h).2)]
    · intro h; exact absurd (Finset.mem_univ q) h
  · rw [if_neg he]
    refine Finset.sum_eq_zero fun c _ => ?_
    rw [if_neg (fun h => he ((accum_lands_iff wf dst e c n q).mp h).1)]

end Accum

end EdgeAgg

end
-- ==== Proof.Bridge.lean ====
import proofs.«415688_j20925080666769_1_alg».proof.Proof.Spec
import proofs.«415688_j20925080666769_1_alg».proof.Proof.LibEdgeAgg
import Idealize.ShloMosaic.PureOps.Ideal
import Idealize.ShloMosaic.PureOps.Ideal.Laws
import Idealize.ShloMosaic.Lib.ValueIdx

noncomputable section

namespace GraphBridge

open Idealize.ShloMosaic Idealize.ShloMosaic.ValueIdx

def srcWord (a1 : (⟨2, ![2, 1600000]⟩ : Shape).Idx → BitVec 32) (e : Fin 1600000) : BitVec 32 :=
  if (a1 (ix2 (0 : Fin 2) e)).slt 0#32 then a1 (ix2 (0 : Fin 2) e) + 100000#32 else a1 (ix2 (0 : Fin 2) e)

def gi (a1 : (⟨2, ![2, 1600000]⟩ : Shape).Idx → BitVec 32) (e : Fin 1600000) : Fin 100000 :=
  EdgeAgg.clampTo 100000 (by decide) (srcWord a1 e)

def hit (a1 : (⟨2, ![2, 1600000]⟩ : Shape).Idx → BitVec 32) (e : Fin 1600000) (n : Fin 100000) : Prop :=
  (a1 (ix2 (1 : Fin 2) e)).toInt = (n.val : Int)

instance (a1 : (⟨2, ![2, 1600000]⟩ : Shape).Idx → BitVec 32) (e : Fin 1600000) (n : Fin 100000) : Decidable (hit a1 e n) := by
  unfold hit; infer_instance

def bhit (a2 : (⟨1, ![100000]⟩ : Shape).Idx → BitVec 32) (n : Fin 100000) (k : Fin 64) : Prop :=
  (a2 (ix1 n)).toInt = (k.val : Int)

instance (a2 : (⟨1, ![100000]⟩ : Shape).Idx → BitVec 32) (n : Fin 100000) (k : Fin 64) : Decidable (bhit a2 n k) := by
  unfold bhit; infer_instance

def epsR : ℝ := (2 ^ 23 + 2606508 : ℕ) * (2 : ℝ) ^ ((110 : Int) - 127 - 23)

theorem eps_pos : 0 < epsR := by unfold epsR; positivity

theorem eps_coe : Ideal.ofBits .f32 0x3727C5AC#32 = ((epsR : ℝ) : EReal) := by
  simp [Ideal.ofBits, Ideal.ieee, epsR]

theorem nn_coe : Ideal.ofBits .f32 0x47C35000#32 = (((100000 : ℕ) : ℝ) : EReal) := by
  simp [Ideal.ofBits, Ideal.ieee]
  rw [← EReal.coe_mul]; norm_num

theorem one_coe : Ideal.ofBits .f32 0x3F800000#32 = ((1 : ℝ) : EReal) := by
  simp [Ideal.ofBits, Ideal.ieee]
  rw [← EReal.coe_mul]; norm_num

end GraphBridge

end
-- ==== Proof.KValCount.lean ====
import proofs.«415688_j20925080666769_1_alg».proof.Proof.LibEdgeAgg
import Idealize.ShloMosaic.Lib.ValueIdxRank1

noncomputable section

namespace EdgeCount

open Idealize.ShloMosaic Idealize.ShloMosaic.ValueIdx
open scoped BigOperators

abbrev countDims (N P : Nat) (wf : ScatterDims.WF ⟨1, ![N]⟩ ⟨2, ![P, 1]⟩ ⟨1, ![P]⟩ [] [0] [0] 1) :
    ScatterDims ⟨1, ![N]⟩ ⟨2, ![P, 1]⟩ ⟨1, ![P]⟩ where
  updateWindowDims := []
  insertedWindowDims := [0]
  scatterDimsToOperandDims := [0]
  indexVectorDim := 1
  wf := wf

variable {N P w : Nat} (wf : ScatterDims.WF ⟨1, ![N]⟩ ⟨2, ![P, 1]⟩ ⟨1, ![P]⟩ [] [0] [0] 1)
  (dst : IVec ⟨2, ![P, 1]⟩ w)

theorem count_start (e : Fin P) :
    (countDims N P wf).start (ix1 e) dst 0 = (dst (ix2 e (0 : Fin 1))).toInt := by
  unfold ScatterDims.start
  rw [dif_pos (show (0 : Fin 1) ∈ (countDims N P wf).scatterDimsToOperandDims from List.mem_singleton.mpr rfl)]
  congr 2
  funext b; refine Fin.ext ?_
  match b with
  | ⟨0, _⟩ => rfl
  | ⟨1, _⟩ => rfl

theorem count_window (e : Fin P) : (countDims N P wf).window (ix1 e) 0 = 0 := by
  unfold ScatterDims.window
  rw [dif_neg (show ¬ (0 : Fin 1) ∈ (countDims N P wf).sKept from by simp [ScatterDims.sKept, Shape.kept])]

theorem count_lands_iff (e : Fin P) (n : Fin N) :
    (countDims N P wf).resultIdx? (ix1 e) dst = some (ix1 n) ↔ (dst (ix2 e (0 : Fin 1))).toInt = (n.val : Int) := by
  rw [EdgeAgg.resultIdx?_eq_some_iff]
  constructor
  · intro h
    have h0 : (countDims N P wf).start (ix1 e) dst 0 + ((countDims N P wf).window (ix1 e) 0 : Int) = (n.val : Int) := h 0
    rw [count_start, count_window] at h0
    simpa using h0
  · intro h0 a
    match a with
    | ⟨0, _⟩ =>
      show (countDims N P wf).start (ix1 e) dst 0 + ((countDims N P wf).window (ix1 e) 0 : Int) = (n.val : Int)
      rw [count_start, count_window, h0]; simp

theorem count_apply (acc : (⟨1, ![N]⟩ : Shape).Idx → EReal) (upd : (⟨1, ![P]⟩ : Shape).Idx → EReal) (n : Fin N) :
    Ideal.hostScatterAdd (countDims N P wf) acc dst upd (ix1 n)
      = acc (ix1 n) + ∑ e ∈ Finset.univ.filter (fun e : Fin P => (dst (ix2 e (0 : Fin 1))).toInt = (n.val : Int)),
          upd (ix1 e) := by
  unfold Ideal.hostScatterAdd
  congr 1
  rw [Finset.sum_filter, Finset.sum_filter, ← Equiv.sum_comp (idxEquiv1 (n := P)).symm]
  refine Finset.sum_congr rfl fun e _ => ?_
  show (if (countDims N P wf).resultIdx? (ix1 e) dst = some (ix1 n) then upd (ix1 e) else 0) = _
  by_cases he : (dst (ix2 e (0 : Fin 1))).toInt = (n.val : Int)
  · rw [if_pos he, if_pos ((count_lands_iff wf dst e n).mpr he)]
  · rw [if_neg he, if_neg (fun h => he ((count_lands_iff wf dst e n).mp h))]

end EdgeCount

end
-- ==== Proof.RefValBasic.lean ====
import proofs.«415688_j20925080666769_1_alg».proof.Proof.RefTerm
import proofs.«415688_j20925080666769_1_alg».proof.Proof.Bridge
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefVal

open Idealize.ShloMosaic Idealize.ShloMosaic.ValueIdx
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

theorem splat_apply {t : Shape} {α : Type} (h : S_.BroadcastsInDim t (![] : Fin 0 → Fin t.rank)) (v : S_.Idx → α)
    (j : t.Idx) : broadcastInDim t ![] h v j = v ix0 :=
  broadcastInDim_apply _ h v j ix0 fun a => a.elim0

theorem hostDivf_apply {s : Shape} {φ : FTy} (a b : FVec Ideal s φ) (i : s.Idx) :
    Host.divf a b i = Ideal.div (a i) (b i) := rfl

theorem hostRsqrt_apply {s : Shape} {φ : FTy} (a : FVec Ideal s φ) (i : s.Idx) :
    Host.rsqrt a i = Ideal.rsqrt (a i) := rfl

theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

theorem bcastRows_apply (v : 𝔸[S1x128, .f32]) (n : Fin 100000) (j : Fin 128) :
    broadcastInDim S100000x128 ![0, 1] bcast_S1x128_S100000x128_0_1 v (ix2 n j) = v (ix2 (0 : Fin 1) j) :=
  broadcastInDim_apply _ _ _ _ (ix2 (0 : Fin 1) j) fun a => by
    match a with
    | ⟨0, _⟩ => rfl
    | ⟨1, _⟩ => rfl

theorem bcastRow_apply (b : 𝔸[S128, .f32]) (j : Fin 128) :
    broadcastInDim S1x128 ![1] bcast_S128_S1x128_1 b (ix2 (0 : Fin 1) j) = b (ix1 j) :=
  broadcastInDim_apply _ _ _ _ (ix1 j) fun a => by
    match a with
    | ⟨0, _⟩ => rfl

theorem coe_max (a b : ℝ) : ((max a b : ℝ) : EReal) = max (a : EReal) (b : EReal) :=
  EReal.coe_strictMono.monotone.map_max

abbrev nn : ℝ := ((100000 : ℕ) : ℝ)

theorem nn_pos : 0 < nn := by unfold nn; norm_num

theorem nn_ne : nn ≠ 0 := ne_of_gt nn_pos

theorem nNodes_coe (k : S_.Idx) : RefTerm.nNodes (F := Ideal) k = ((nn : ℝ) : EReal) := GraphBridge.nn_coe

theorem zero_coe (k : S_.Idx) : RefTerm.zero (F := Ideal) k = 0 := Ideal.ofBits_zero_f32

theorem one_coe (k : S_.Idx) : RefTerm.one (F := Ideal) k = ((1 : ℝ) : EReal) := GraphBridge.one_coe

theorem eps_coe (k : S_.Idx) : RefTerm.eps (F := Ideal) k = ((GraphBridge.epsR : ℝ) : EReal) := GraphBridge.eps_coe

end Cert.ReferenceIdeal.RefVal

end
-- ==== Proof.RefValEdges.lean ====
import proofs.«415688_j20925080666769_1_alg».proof.Proof.RefTerm
import proofs.«415688_j20925080666769_1_alg».proof.Proof.Spec
import proofs.«415688_j20925080666769_1_alg».proof.Proof.Bridge
import proofs.«415688_j20925080666769_1_alg».proof.Proof.LibEdgeAgg
import proofs.«415688_j20925080666769_1_alg».proof.Proof.KValCount
import proofs.«415688_j20925080666769_1_alg».proof.Proof.RefValBasic
import Idealize.ShloMosaic.Lib.Pipeline.Value
import Idealize.ShloMosaic.Lib.ValueLayout

noncomputable section

namespace Cert.ReferenceIdeal.RefVal

open Idealize.ShloMosaic Idealize.ShloMosaic.ValueIdx EdgeCount
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

theorem src_apply (a1 : 𝔸[S2x1600000, .i32]) (e : Fin 1600000) :
    RefTerm.src (F := Ideal) a1 (ix1 e) = a1 (ix2 (0 : Fin 2) e) := by
  unfold RefTerm.src
  refine (shapeCast_1a_a_apply _ _ e).trans ?_
  exact slice2_axis0_apply 0 a1 _ (0 : Fin 1) e (0 : Fin 2) rfl

theorem dst_apply (a1 : 𝔸[S2x1600000, .i32]) (e : Fin 1600000) :
    RefTerm.dst (F := Ideal) a1 (ix1 e) = a1 (ix2 (1 : Fin 2) e) := by
  unfold RefTerm.dst
  refine (shapeCast_1a_a_apply _ _ e).trans ?_
  exact slice2_axis0_apply 1 a1 _ (0 : Fin 1) e (1 : Fin 2) rfl

theorem srcWrapped_apply (a1 : 𝔸[S2x1600000, .i32]) (e : Fin 1600000) :
    RefTerm.srcWrapped (F := Ideal) a1 (ix1 e) = GraphBridge.srcWord a1 e := by
  show Scalar.select (IntOp.cmpi .slt (RefTerm.src (F := Ideal) a1 (ix1 e)) 0#32)
    (IntOp.addi (RefTerm.src (F := Ideal) a1 (ix1 e)) 100000#32) (RefTerm.src (F := Ideal) a1 (ix1 e)) = _
  rw [src_apply]
  unfold Scalar.select IntOp.cmpi IntOp.addi GraphBridge.srcWord
  cases h : (a1 (ix2 (0 : Fin 2) e)).slt 0#32 <;> simp

theorem srcRow_apply (a1 : 𝔸[S2x1600000, .i32]) (e : Fin 1600000) :
    RefTerm.srcRow (F := Ideal) a1 (ix2 e (0 : Fin 1)) = GraphBridge.srcWord a1 e := by
  unfold RefTerm.srcRow
  refine (broadcastInDim_apply _ _ _ _ (ix1 e) fun a => ?_).trans (srcWrapped_apply a1 e)
  match a with
  | ⟨0, _⟩ => rfl

theorem dstRow_apply (a1 : 𝔸[S2x1600000, .i32]) (e : Fin 1600000) :
    RefTerm.dstRow (F := Ideal) a1 (ix2 e (0 : Fin 1)) = a1 (ix2 (1 : Fin 2) e) := by
  unfold RefTerm.dstRow
  refine (broadcastInDim_apply _ _ _ _ (ix1 e) fun a => ?_).trans (dst_apply a1 e)
  match a with
  | ⟨0, _⟩ => rfl

theorem gatherDims_eq :
    gather_S100000x128_S1600000x1_S1600000x128_1_0_n_n_0_1_1128
      = EdgeAgg.lookupDims 100000 128 1600000 gather_S100000x128_S1600000x1_S1600000x128_1_0_n_n_0_1_1128_wf := rfl

theorem accumDims_eq :
    scatter_S100000x128_S1600000x1_S1600000x128_1_0_0_1
      = EdgeAgg.accumDims 100000 128 1600000 scatter_S100000x128_S1600000x1_S1600000x128_1_0_0_1_wf := rfl

theorem countDims_eq :
    scatter_S100000_S1600000x1_S1600000_n_0_0_1
      = countDims 100000 1600000 scatter_S100000_S1600000x1_S1600000_n_0_0_1_wf := rfl

theorem gathered_apply (x : 𝔸[S100000x128, .f32]) (a1 : 𝔸[S2x1600000, .i32]) (e : Fin 1600000) (q : Fin 128) :
    RefTerm.gathered (F := Ideal) x a1 (ix2 e q) = x (ix2 (GraphBridge.gi a1 e) q) := by
  unfold RefTerm.gathered
  rw [gatherDims_eq, EdgeAgg.lookup_apply (by decide : 0 < 100000), srcRow_apply]
  rfl

theorem aggOf_apply (x : 𝔸[S100000x128, .f32]) (a1 : 𝔸[S2x1600000, .i32]) (n : Fin 100000) (q : Fin 128) :
    RefTerm.aggOf (F := Ideal) x a1 (ix2 n q)
      = ∑ e : Fin 1600000, if GraphBridge.hit a1 e n then x (ix2 (GraphBridge.gi a1 e) q) else 0 := by
  unfold RefTerm.aggOf
  rw [hostScatterAdd_eq, accumDims_eq, EdgeAgg.accum_apply, splat_apply, zero_coe, zero_add, Finset.sum_filter]
  refine Finset.sum_congr rfl fun e _ => ?_
  by_cases h : GraphBridge.hit a1 e n
  · have h' : (RefTerm.dstRow (F := Ideal) a1 (ix2 e (0 : Fin 1))).toInt = (n.val : Int) := by
      rw [dstRow_apply]; exact h
    rw [if_pos h, if_pos h', gathered_apply]
  · have h' : ¬ (RefTerm.dstRow (F := Ideal) a1 (ix2 e (0 : Fin 1))).toInt = (n.val : Int) := by
      rw [dstRow_apply]; exact h
    rw [if_neg h, if_neg h']

theorem deg_apply (a1 : 𝔸[S2x1600000, .i32]) (n : Fin 100000) :
    RefTerm.deg (F := Ideal) a1 (ix1 n) = ∑ e : Fin 1600000, if GraphBridge.hit a1 e n then ((1 : ℝ) : EReal) else 0 := by
  unfold RefTerm.deg
  rw [hostScatterAdd_eq, countDims_eq, count_apply, splat_apply, zero_coe, zero_add, Finset.sum_filter]
  refine Finset.sum_congr rfl fun e _ => ?_
  by_cases h : GraphBridge.hit a1 e n
  · have h' : (RefTerm.dstRow (F := Ideal) a1 (ix2 e (0 : Fin 1))).toInt = (n.val : Int) := by
      rw [dstRow_apply]; exact h
    rw [if_pos h, if_pos h', splat_apply, one_coe]
  · have h' : ¬ (RefTerm.dstRow (F := Ideal) a1 (ix2 e (0 : Fin 1))).toInt = (n.val : Int) := by
      rw [dstRow_apply]; exact h
    rw [if_neg h, if_neg h']

section Real

variable (x : 𝔸[S100000x128, .f32]) (a1 : 𝔸[S2x1600000, .i32]) (X : Fin 100000 → Fin 128 → ℝ)
  (hx : ∀ n j, x (ix2 n j) = ((X n j : ℝ) : EReal))

include hx in
theorem aggOf_coe (n : Fin 100000) (q : Fin 128) :
    RefTerm.aggOf (F := Ideal) x a1 (ix2 n q)
      = ((GraphSpec.agg (GraphBridge.gi a1) (GraphBridge.hit a1) X n q : ℝ) : EReal) := by
  rw [aggOf_apply, GraphSpec.agg, GraphSpec.coe_sum]
  refine Finset.sum_congr rfl fun e _ => ?_
  by_cases h : GraphBridge.hit a1 e n
  · rw [if_pos h, if_pos h, hx]
  · rw [if_neg h, if_neg h, EReal.coe_zero]

theorem deg_coe (n : Fin 100000) :
    RefTerm.deg (F := Ideal) a1 (ix1 n) = ((GraphSpec.deg (GraphBridge.hit a1) n : ℝ) : EReal) := by
  rw [deg_apply, GraphSpec.deg, GraphSpec.coe_sum]
  refine Finset.sum_congr rfl fun e _ => ?_
  by_cases h : GraphBridge.hit a1 e n
  · rw [if_pos h, if_pos h]
  · rw [if_neg h, if_neg h, EReal.coe_zero]

theorem dmaxB_coe (n : Fin 100000) (q : Fin 128) :
    RefTerm.dmaxB (F := Ideal) a1 (ix2 n q) = ((max (GraphSpec.deg (GraphBridge.hit a1) n) 1 : ℝ) : EReal) := by
  unfold RefTerm.dmaxB
  refine (broadcastInDim_apply _ _ _ _ (ix2 n (0 : Fin 1)) fun a => ?_).trans ?_
  · match a with
    | ⟨0, _⟩ => rfl
    | ⟨1, _⟩ => rfl
  refine (broadcastInDim_apply _ _ _ _ (ix1 n) fun a => ?_).trans ?_
  · match a with
    | ⟨0, _⟩ => rfl
  unfold RefTerm.dmax
  rw [maximumf_apply, splat_apply, one_coe, deg_coe, ← coe_max]

include hx in

theorem meanAgg_coe (n : Fin 100000) (q : Fin 128) :
    RefTerm.meanAgg (F := Ideal) x a1 (ix2 n q)
      = ((GraphSpec.agg (GraphBridge.gi a1) (GraphBridge.hit a1) X n q / max (GraphSpec.deg (GraphBridge.hit a1) n) 1 : ℝ) : EReal) := by
  unfold RefTerm.meanAgg
  have hne : max (GraphSpec.deg (GraphBridge.hit a1) n) 1 ≠ 0 :=
    ne_of_gt (lt_of_lt_of_le one_pos (le_max_right _ _))
  rw [hostDivf_apply, aggOf_coe x a1 X hx, dmaxB_coe, Ideal.div_coe hne, ← EReal.coe_mul, mul_one_div]

end Real

end Cert.ReferenceIdeal.RefVal

end
-- ==== Proof.RefValDot.lean ====
import proofs.«415688_j20925080666769_1_alg».proof.Proof.RefTerm
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.ReferenceIdeal.RefVal

open Idealize.ShloMosaic Idealize.ShloMosaic.ValueIdx
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

theorem lhs_sage_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch from List.not_mem_nil),
    dif_pos (show (0 : Fin S100000x128.rank) ∈ dot_S100000x128_S128x128_S100000x128_1_0_0_1_n_n.lhsNonContracting from List.mem_singleton.mpr rfl)]
  rfl

theorem lhs_sage_1 (i : S100000x128.Idx) (q : dot_S100000x128_S128x128_S100000x128_1_0_0_1_n_n.contr.Idx) :
    (dot_S100000x128_S128x128_S100000x128_1_0_0_1_n_n.lhsIdx i q 1).val = (q ⟨0, Nat.one_pos⟩).val :=
  dot_S100000x128_S128x128_S100000x128_1_0_0_1_n_n.lhsIdx_val_of_single rfl i q

theorem rhs_sage_0 (i : S100000x128.Idx) (q : dot_S100000x128_S128x128_S100000x128_1_0_0_1_n_n.contr.Idx) :
    (dot_S100000x128_S128x128_S100000x128_1_0_0_1_n_n.rhsIdx i q 0).val = (q ⟨0, Nat.one_pos⟩).val :=
  dot_S100000x128_S128x128_S100000x128_1_0_0_1_n_n.rhsIdx_val_of_single rfl i q

theorem rhs_sage_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch from List.not_mem_nil),
    dif_pos (show (1 : Fin S128x128.rank) ∈ dot_S100000x128_S128x128_S100000x128_1_0_0_1_n_n.rhsNonContracting from List.mem_singleton.mpr rfl)]
  rfl

theorem dot_sage_apply (l : 𝔸[S100000x128, .f32]) (r : 𝔸[S128x128, .f32]) (n : Fin 100000) (j : Fin 128) :
    Host.dotGeneral (F := Ideal) (φ₁ := .f32) (φ₂ := .f32) dot_S100000x128_S128x128_S100000x128_1_0_0_1_n_n none l r (ix2 n j)
      = ∑ k : Fin 128, l (ix2 n k) * r (ix2 k j) := by
  simp only [Host.dotGeneral]
  rw [Ideal.dotGeneral_apply,
    ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 n j)
      ((contrEquiv1 dot_S100000x128_S128x128_S100000x128_1_0_0_1_n_n 128 rfl rfl).symm k) = ix2 n k :=
    funext fun a => Fin.ext (by
      match a with
      | ⟨0, _⟩ => exact lhs_sage_0 _ _
      | ⟨1, _⟩ => exact (lhs_sage_1 _ _).trans hk)
  have er : dot_S100000x128_S128x128_S100000x128_1_0_0_1_n_n.rhsIdx (ix2 n j)
      ((contrEquiv1 dot_S100000x128_S128x128_S100000x128_1_0_0_1_n_n 128 rfl rfl).symm k) = ix2 k j :=
    funext fun a => Fin.ext (by
      match a with
      | ⟨0, _⟩ => exact (rhs_sage_0 _ _).trans hk
      | ⟨1, _⟩ => exact rhs_sage_1 _ _)
  rw [el, er]

theorem lhs_head_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch from List.not_mem_nil),
    dif_pos (show (0 : Fin S64x128.rank) ∈ dot_S64x128_S128x64_S64x64_1_0_0_1_n_n.lhsNonContracting from List.mem_singleton.mpr rfl)]
  rfl

theorem lhs_head_1 (i : S64x64.Idx) (q : dot_S64x128_S128x64_S64x64_1_0_0_1_n_n.contr.Idx) :
    (dot_S64x128_S128x64_S64x64_1_0_0_1_n_n.lhsIdx i q 1).val = (q ⟨0, Nat.one_pos⟩).val :=
  dot_S64x128_S128x64_S64x64_1_0_0_1_n_n.lhsIdx_val_of_single rfl i q

theorem rhs_head_0 (i : S64x64.Idx) (q : dot_S64x128_S128x64_S64x64_1_0_0_1_n_n.contr.Idx) :
    (dot_S64x128_S128x64_S64x64_1_0_0_1_n_n.rhsIdx i q 0).val = (q ⟨0, Nat.one_pos⟩).val :=
  dot_S64x128_S128x64_S64x64_1_0_0_1_n_n.rhsIdx_val_of_single rfl i q

theorem rhs_head_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch from List.not_mem_nil),
    dif_pos (show (1 : Fin S128x64.rank) ∈ dot_S64x128_S128x64_S64x64_1_0_0_1_n_n.rhsNonContracting from List.mem_singleton.mpr rfl)]
  rfl

theorem dot_head_apply (l : 𝔸[S64x128, .f32]) (r : 𝔸[S128x64, .f32]) (g : Fin 64) (o : Fin 64) :
    Host.dotGeneral (F := Ideal) (φ₁ := .f32) (φ₂ := .f32) dot_S64x128_S128x64_S64x64_1_0_0_1_n_n none l r (ix2 g o)
      = ∑ d : Fin 128, l (ix2 g d) * r (ix2 d o) := by
  simp only [Host.dotGeneral]
  rw [Ideal.dotGeneral_apply,
    ← Equiv.sum_comp (contrEquiv1 dot_S64x128_S128x64_S64x64_1_0_0_1_n_n 128 rfl rfl).symm]
  refine Finset.sum_congr rfl fun k _ => ?_
  have hk := contrEquiv1_symm_val dot_S64x128_S128x64_S64x64_1_0_0_1_n_n 128 rfl rfl k
  have el : dot_S64x128_S128x64_S64x64_1_0_0_1_n_n.lhsIdx (ix2 g o)
      ((contrEquiv1 dot_S64x128_S128x64_S64x64_1_0_0_1_n_n 128 rfl rfl).symm k) = ix2 g k :=
    funext fun a => Fin.ext (by
      match a with
      | ⟨0, _⟩ => exact lhs_head_0 _ _
      | ⟨1, _⟩ => exact (lhs_head_1 _ _).trans hk)
  have er : dot_S64x128_S128x64_S64x64_1_0_0_1_n_n.rhsIdx (ix2 g o)
      ((contrEquiv1 dot_S64x128_S128x64_S64x64_1_0_0_1_n_n 128 rfl rfl).symm k) = ix2 k o :=
    funext fun a => Fin.ext (by
      match a with
      | ⟨0, _⟩ => exact (rhs_head_0 _ _).trans hk
      | ⟨1, _⟩ => exact rhs_head_1 _ _)
  rw [el, er]

theorem colSum_apply (x : 𝔸[S100000x128, .f32]) (j : Fin 128) :
    RefTerm.colSum (F := Ideal) x (ix1 j) = ∑ n : Fin 100000, x (ix2 n j) := by
  unfold RefTerm.colSum
  simp only [Host.reduceAdd, Ideal.hostReduceAdd_def]
  rw [Ideal.hostReduceAdd_single reducesTo_S100000x128_S128_d0 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

theorem rowB_apply (b : 𝔸[S128, .f32]) (n : Fin 100000) (j : Fin 128) :
    RefTerm.rowB (F := Ideal) b (ix2 n j) = b (ix1 j) := by
  unfold RefTerm.rowB
  refine (broadcastInDim_apply _ _ _ _ (ix2 (0 : Fin 1) j) fun a => ?_).trans ?_
  · match a with
    | ⟨0, _⟩ => rfl
    | ⟨1, _⟩ => rfl
  refine broadcastInDim_apply _ _ _ _ (ix1 j) fun a => ?_
  match a with
  | ⟨0, _⟩ => rfl

theorem tr128_apply (w : 𝔸[S128x128, .f32]) (k j : Fin 128) :
    transpose S128x128 [1, 0] w transposes_S128x128_S128x128_1_0 (ix2 k j) = w (ix2 j k) :=
  transpose_ix2_apply w _ k j

theorem tr64_apply (w : 𝔸[S64x128, .f32]) (d : Fin 128) (o : Fin 64) :
    transpose S128x64 [1, 0] w transposes_S64x128_S128x64_1_0 (ix2 d o) = w (ix2 o d) :=
  transpose_ix2_apply w _ d o

end Cert.ReferenceIdeal.RefVal

end
-- ==== Proof.RefValLayer.lean ====
import proofs.«415688_j20925080666769_1_alg».proof.Proof.RefValEdges
import proofs.«415688_j20925080666769_1_alg».proof.Proof.RefValDot

noncomputable section

namespace Cert.ReferenceIdeal.RefVal

open Idealize.ShloMosaic Idealize.ShloMosaic.ValueIdx
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

variable (x : 𝔸[S100000x128, .f32]) (a1 : 𝔸[S2x1600000, .i32]) (X : Fin 100000 → Fin 128 → ℝ)
  (hx : ∀ n j, x (ix2 n j) = ((X n j : ℝ) : EReal))
  (wl : 𝔸[S128x128, .f32]) (bl : 𝔸[S128, .f32]) (wr : 𝔸[S128x128, .f32])
  (WL : Fin 128 → Fin 128 → ℝ) (BL : Fin 128 → ℝ) (WR : Fin 128 → Fin 128 → ℝ)
  (hwl : ∀ i j, wl (ix2 i j) = ((WL i j : ℝ) : EReal)) (hbl : ∀ j, bl (ix1 j) = ((BL j : ℝ) : EReal))
  (hwr : ∀ i j, wr (ix2 i j) = ((WR i j : ℝ) : EReal))

include hx hwl hbl hwr in

theorem sage_coe (n : Fin 100000) (j : Fin 128) :
    RefTerm.sage (F := Ideal) x a1 wl bl wr (ix2 n j)
      = ((GraphSpec.conv (GraphBridge.gi a1) (GraphBridge.hit a1) X WL BL WR n j : ℝ) : EReal) := by
  unfold RefTerm.sage
  have e1 : (∑ k : Fin 128, RefTerm.meanAgg (F := Ideal) x a1 (ix2 n k)
        * transpose S128x128 [1, 0] wl transposes_S128x128_S128x128_1_0 (ix2 k j))
      = ∑ k : Fin 128, (((GraphSpec.agg (GraphBridge.gi a1) (GraphBridge.hit a1) X n k
          / max (GraphSpec.deg (GraphBridge.hit a1) n) 1) * WL j k : ℝ) : EReal) :=
    Finset.sum_congr rfl fun k _ => by
      rw [tr128_apply, meanAgg_coe x a1 X hx, hwl, ← EReal.coe_mul]
  have e2 : (∑ k : Fin 128, x (ix2 n k) * transpose S128x128 [1, 0] wr transposes_S128x128_S128x128_1_0 (ix2 k j))
      = ∑ k : Fin 128, ((X n k * WR j k : ℝ) : EReal) :=
    Finset.sum_congr rfl fun k _ => by
      rw [tr128_apply, hx, hwr, ← EReal.coe_mul]
  rw [addf_apply, addf_apply, dot_sage_apply, dot_sage_apply, rowB_apply, e1, e2, ← GraphSpec.coe_sum,
    ← GraphSpec.coe_sum, hbl, ← EReal.coe_add, ← EReal.coe_add]
  rfl

end Cert.ReferenceIdeal.RefVal

end
-- ==== Proof.RefValNorm.lean ====
import proofs.«415688_j20925080666769_1_alg».proof.Proof.RefTerm
import proofs.«415688_j20925080666769_1_alg».proof.Proof.Spec
import proofs.«415688_j20925080666769_1_alg».proof.Proof.Bridge
import proofs.«415688_j20925080666769_1_alg».proof.Proof.RefValDot
import proofs.«415688_j20925080666769_1_alg».proof.Proof.RefValBasic

noncomputable section

namespace Cert.ReferenceIdeal.RefVal

open Idealize.ShloMosaic Idealize.ShloMosaic.ValueIdx
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

section Real

variable (x : 𝔸[S100000x128, .f32]) (X : Fin 100000 → Fin 128 → ℝ)
  (hx : ∀ n j, x (ix2 n j) = ((X n j : ℝ) : EReal))

include hx in
theorem colSum_coe (j : Fin 128) : RefTerm.colSum (F := Ideal) x (ix1 j) = ((∑ n : Fin 100000, X n j : ℝ) : EReal) := by
  rw [colSum_apply, GraphSpec.coe_sum]
  exact Finset.sum_congr rfl fun n _ => hx n j

include hx in

theorem muOf_coe (j : Fin 128) : RefTerm.muOf (F := Ideal) x (ix1 j) = ((GraphSpec.mean nn X j : ℝ) : EReal) := by
  unfold RefTerm.muOf
  rw [hostDivf_apply, splat_apply, nNodes_coe, colSum_coe x X hx, Ideal.div_coe nn_ne, ← EReal.coe_mul, mul_one_div]
  rfl

include hx in

theorem centered_coe (n : Fin 100000) (j : Fin 128) :
    RefTerm.centered (F := Ideal) x (ix2 n j) = ((X n j - GraphSpec.mean nn X j : ℝ) : EReal) := by
  unfold RefTerm.centered
  rw [subf_apply, bcastRows_apply, hostDivf_apply, splat_apply, bcastRow_apply, nNodes_coe, hx, colSum_coe x X hx,
    Ideal.div_coe nn_ne, ← EReal.coe_mul, mul_one_div, ← EReal.coe_sub]
  rfl

theorem varDen_coe (k : S_.Idx) : RefTerm.varDen (F := Ideal) k = ((nn : ℝ) : EReal) := by
  unfold RefTerm.varDen
  rw [subf_apply, nNodes_coe, sitofp_apply, constantI_apply]
  show ((nn : ℝ) : EReal) - ((((0#32 : BitVec 32).toInt : ℝ)) : EReal) = _
  simp

include hx in

theorem varOf_coe (j : Fin 128) : RefTerm.varOf (F := Ideal) x (ix1 j) = ((GraphSpec.var nn X j : ℝ) : EReal) := by
  unfold RefTerm.varOf
  have hc : FloatOps.cmpf (F := Ideal) (φ := .f32) .ogt (RefTerm.varDen (F := Ideal) ix0) (RefTerm.zero (F := Ideal) ix0) = 1#1 := by
    rw [varDen_coe, zero_coe]
    have : (0 : EReal) < ((nn : ℝ) : EReal) := by exact_mod_cast nn_pos
    show BitVec.ofBool (decide ((0 : EReal) < ((nn : ℝ) : EReal))) = 1#1
    rw [decide_eq_true this]
    rfl
  have hs : ∀ n : Fin 100000, (mulf (F := Ideal) (s := S100000x128) (φ := .f32) (RefTerm.centered (F := Ideal) x) (RefTerm.centered (F := Ideal) x)) (ix2 n j)
      = (((X n j - GraphSpec.mean nn X j) * (X n j - GraphSpec.mean nn X j) : ℝ) : EReal) := fun n => by
    rw [mulf_apply, centered_coe x X hx, ← EReal.coe_mul]
  rw [select_apply, splat_apply, cmpf_apply, hc, select_one, hostDivf_apply, splat_apply, varDen_coe, colSum_apply,
    Finset.sum_congr rfl (fun n _ => hs n), ← GraphSpec.coe_sum, Ideal.div_coe nn_ne, ← EReal.coe_mul, mul_one_div]
  rfl

include hx in

theorem rstdOf_coe (j : Fin 128) :
    RefTerm.rstdOf (F := Ideal) x (ix1 j) = (((Real.sqrt (GraphSpec.var nn X j + GraphBridge.epsR))⁻¹ : ℝ) : EReal) := by
  unfold RefTerm.rstdOf
  have hpos : 0 < GraphSpec.var nn X j + GraphBridge.epsR :=
    add_pos_of_nonneg_of_pos (GraphSpec.var_nonneg nn nn_pos.le X j) GraphBridge.eps_pos
  rw [hostRsqrt_apply, addf_apply, splat_apply, eps_coe, varOf_coe x X hx, ← EReal.coe_add, Ideal.rsqrt_coe,
    if_neg (not_lt.mpr hpos.le), if_neg hpos.ne']

variable (g b : 𝔸[S128, .f32]) (G B : Fin 128 → ℝ) (hg : ∀ j, g (ix1 j) = ((G j : ℝ) : EReal))
  (hb : ∀ j, b (ix1 j) = ((B j : ℝ) : EReal))

include hx hg hb in

theorem bnrelu_coe (n : Fin 100000) (j : Fin 128) :
    RefTerm.relu (F := Ideal) (RefTerm.bn (F := Ideal) x g b) (ix2 n j)
      = ((GraphSpec.bnrelu nn GraphBridge.epsR X G B n j : ℝ) : EReal) := by
  unfold RefTerm.relu RefTerm.bn
  rw [maximumf_apply, splat_apply, zero_coe, addf_apply, mulf_apply, mulf_apply, subf_apply, rowB_apply, rowB_apply,
    rowB_apply, rowB_apply, hx, hg, hb, muOf_coe x X hx, rstdOf_coe x X hx, ← EReal.coe_sub, ← EReal.coe_mul,
    ← EReal.coe_mul, ← EReal.coe_add, ← EReal.coe_zero, ← coe_max]
  rfl

end Real

end Cert.ReferenceIdeal.RefVal

end
-- ==== Proof.RefValHead.lean ====
import proofs.«415688_j20925080666769_1_alg».proof.Proof.RefTerm
import proofs.«415688_j20925080666769_1_alg».proof.Proof.Spec
import proofs.«415688_j20925080666769_1_alg».proof.Proof.Bridge
import proofs.«415688_j20925080666769_1_alg».proof.Proof.LibEdgeAgg
import proofs.«415688_j20925080666769_1_alg».proof.Proof.KValCount
import proofs.«415688_j20925080666769_1_alg».proof.Proof.RefValDot
import Idealize.ShloMosaic.Lib.Pipeline.Value
import Idealize.ShloMosaic.Lib.ValueLayout

noncomputable section

namespace Cert.ReferenceIdeal.RefVal

open Idealize.ShloMosaic Idealize.ShloMosaic.ValueIdx EdgeCount
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

theorem head_batchRow_apply (a2 : 𝔸[S100000, .i32]) (n : Fin 100000) :
    RefTerm.batchRow (F := Ideal) a2 (ix2 n (0 : Fin 1)) = a2 (ix1 n) := by
  unfold RefTerm.batchRow
  refine broadcastInDim_apply _ _ _ _ (ix1 n) fun a => ?_
  match a with
  | ⟨0, _⟩ => rfl

theorem head_poolDims_eq :
    scatter_S64x128_S100000x1_S100000x128_1_0_0_1
      = EdgeAgg.accumDims 64 128 100000 scatter_S64x128_S100000x1_S100000x128_1_0_0_1_wf := rfl

theorem head_cntDims_eq :
    scatter_S64_S100000x1_S100000_n_0_0_1
      = countDims 64 100000 scatter_S64_S100000x1_S100000_n_0_0_1_wf := rfl

theorem head_poolSum_apply (a2 : 𝔸[S100000, .i32]) (Z : 𝔸[S100000x128, .f32]) (k : Fin 64) (d : Fin 128) :
    RefTerm.poolSum (F := Ideal) a2 Z (ix2 k d)
      = ∑ n : Fin 100000, if GraphBridge.bhit a2 n k then Z (ix2 n d) else 0 := by
  unfold RefTerm.poolSum
  show Ideal.hostScatterAdd scatter_S64x128_S100000x1_S100000x128_1_0_0_1 _ _ _ _ = _
  rw [head_poolDims_eq, EdgeAgg.accum_apply]
  show Ideal.ofBits .f32 0x00000000#32 + _ = _
  rw [Ideal.ofBits_zero_f32, zero_add, Finset.sum_filter]
  refine Finset.sum_congr rfl fun n _ => ?_
  by_cases h : GraphBridge.bhit a2 n k
  · rw [if_pos h, if_pos (show (RefTerm.batchRow (F := Ideal) a2 (ix2 n (0 : Fin 1))).toInt = (k.val : Int) by
      rw [head_batchRow_apply]; exact h)]
  · rw [if_neg h, if_neg (show ¬ (RefTerm.batchRow (F := Ideal) a2 (ix2 n (0 : Fin 1))).toInt = (k.val : Int) by
      rw [head_batchRow_apply]; exact h)]

theorem head_cnt_apply (a2 : 𝔸[S100000, .i32]) (k : Fin 64) :
    RefTerm.cnt (F := Ideal) a2 (ix1 k)
      = ∑ n : Fin 100000, if GraphBridge.bhit a2 n k then ((1 : ℝ) : EReal) else 0 := by
  unfold RefTerm.cnt
  show Ideal.hostScatterAdd scatter_S64_S100000x1_S100000_n_0_0_1 _ _ _ _ = _
  rw [head_cntDims_eq, count_apply]
  show Ideal.ofBits .f32 0x00000000#32 + _ = _
  rw [Ideal.ofBits_zero_f32, zero_add, Finset.sum_filter]
  refine Finset.sum_congr rfl fun n _ => ?_
  have h1 : (broadcastInDim S100000 ![] bcast_S_S100000 (RefTerm.one (F := Ideal))) (ix1 n) = ((1 : ℝ) : EReal) :=
    GraphBridge.one_coe
  by_cases h : GraphBridge.bhit a2 n k
  · rw [if_pos h, if_pos (show (RefTerm.batchRow (F := Ideal) a2 (ix2 n (0 : Fin 1))).toInt = (k.val : Int) by
      rw [head_batchRow_apply]; exact h), h1]
  · rw [if_neg h, if_neg (show ¬ (RefTerm.batchRow (F := Ideal) a2 (ix2 n (0 : Fin 1))).toInt = (k.val : Int) by
      rw [head_batchRow_apply]; exact h)]

theorem head_poolSum_coe (a2 : 𝔸[S100000, .i32]) (Z : 𝔸[S100000x128, .f32]) (Y : Fin 100000 → Fin 128 → ℝ)
    (hZ : ∀ n d, Z (ix2 n d) = ((Y n d : ℝ) : EReal)) (k : Fin 64) (d : Fin 128) :
    RefTerm.poolSum (F := Ideal) a2 Z (ix2 k d) = ((GraphSpec.pooled (GraphBridge.bhit a2) Y k d : ℝ) : EReal) := by
  rw [head_poolSum_apply, GraphSpec.pooled, GraphSpec.coe_sum]
  refine Finset.sum_congr rfl fun n _ => ?_
  by_cases h : GraphBridge.bhit a2 n k
  · rw [if_pos h, if_pos h, hZ]
  · rw [if_neg h, if_neg h, EReal.coe_zero]

theorem head_cnt_coe (a2 : 𝔸[S100000, .i32]) (k : Fin 64) :
    RefTerm.cnt (F := Ideal) a2 (ix1 k) = ((GraphSpec.cnt (GraphBridge.bhit a2) k : ℝ) : EReal) := by
  rw [head_cnt_apply, GraphSpec.cnt, GraphSpec.coe_sum]
  refine Finset.sum_congr rfl fun n _ => ?_
  by_cases h : GraphBridge.bhit a2 n k
  · rw [if_pos h, if_pos h]
  · rw [if_neg h, if_neg h, EReal.coe_zero]

theorem head_cntB_coe (a2 : 𝔸[S100000, .i32]) (k : Fin 64) (d : Fin 128) :
    RefTerm.cntB (F := Ideal) a2 (ix2 k d) = ((max (GraphSpec.cnt (GraphBridge.bhit a2) k) 1 : ℝ) : EReal) := by
  unfold RefTerm.cntB
  refine (broadcastInDim_apply _ _ _ _ (ix2 k (0 : Fin 1)) fun a => ?_).trans ?_
  · match a with
    | ⟨0, _⟩ => rfl
    | ⟨1, _⟩ => rfl
  refine (broadcastInDim_apply _ _ _ _ (ix1 k) fun a => ?_).trans ?_
  · match a with
    | ⟨0, _⟩ => rfl
  show max (RefTerm.cnt (F := Ideal) a2 (ix1 k)) (Ideal.ofBits .f32 0x3F800000#32) = _
  rw [head_cnt_coe, GraphBridge.one_coe]
  exact (EReal.coe_strictMono.monotone.map_max).symm

theorem head_bias_apply (b : 𝔸[S64, .f32]) (k o : Fin 64) :
    broadcastInDim S64x64 ![0, 1] bcast_S1x64_S64x64_0_1 (broadcastInDim S1x64 ![1] bcast_S64_S1x64_1 b) (ix2 k o)
      = b (ix1 o) := by
  refine (broadcastInDim_apply _ _ _ _ (ix2 (0 : Fin 1) o) fun a => ?_).trans ?_
  · match a with
    | ⟨0, _⟩ => rfl
    | ⟨1, _⟩ => rfl
  refine broadcastInDim_apply _ _ _ _ (ix1 o) fun a => ?_
  match a with
  | ⟨0, _⟩ => rfl

theorem head_value (a2 : (⟨S100000, .i32⟩ : BufTy).Contents (Elt Ideal)) (a11 : (⟨S64x128, .f32⟩ : BufTy).Contents (Elt Ideal))
    (a12 : (⟨S64, .f32⟩ : BufTy).Contents (Elt Ideal)) (Z : (⟨S100000x128, .f32⟩ : BufTy).Contents (Elt Ideal))
    (Y : Fin 100000 → Fin 128 → ℝ) (hZ : ∀ n d, Z (ix2 n d) = ((Y n d : ℝ) : EReal))
    (fw : Fin 64 → Fin 128 → ℝ) (hfw : ∀ o d, a11 (ix2 o d) = ((fw o d : ℝ) : EReal))
    (fb : Fin 64 → ℝ) (hfb : ∀ o, a12 (ix1 o) = ((fb o : ℝ) : EReal)) (k o : Fin 64) :
    RefTerm.head a2 (RefTerm.poolSum a2 Z) a11 a12 (ix2 k o)
      = ((GraphSpec.head (GraphSpec.pooled (GraphBridge.bhit a2) Y) (GraphSpec.cnt (GraphBridge.bhit a2)) fw fb k o : ℝ) : EReal) := by
  unfold RefTerm.head
  rw [addf_apply, dot_head_apply, head_bias_apply, hfb]
  unfold GraphSpec.head
  rw [EReal.coe_add, GraphSpec.coe_sum]
  refine congrArg (· + ((fb o : ℝ) : EReal)) (Finset.sum_congr rfl fun d _ => ?_)
  have hne : max (GraphSpec.cnt (GraphBridge.bhit a2) k) 1 ≠ 0 :=
    ne_of_gt (lt_of_lt_of_le one_pos (le_max_right _ _))
  rw [tr64_apply, hfw]
  have hdiv : ∀ (p c : 𝔸[S64x128, .f32]) (i : S64x128.Idx),
      Host.divf (F := Ideal) (s := S64x128) (φ := .f32) p c i = Ideal.div (p i) (c i) := fun _ _ _ => rfl
  rw [hdiv, head_poolSum_coe a2 Z Y hZ, head_cntB_coe, Ideal.div_coe hne, ← EReal.coe_mul, mul_one_div, ← EReal.coe_mul]

end Cert.ReferenceIdeal.RefVal

end
-- ==== Proof.RefVal.lean ====
import proofs.«415688_j20925080666769_1_alg».proof.Proof.RefValLayer
import proofs.«415688_j20925080666769_1_alg».proof.Proof.RefValNorm
import proofs.«415688_j20925080666769_1_alg».proof.Proof.RefValHead

noncomputable section

namespace Cert.ReferenceIdeal.RefVal

open Idealize.ShloMosaic Idealize.ShloMosaic.ValueIdx
open Cert.ReferenceIdeal Cert.ReferenceIdeal.Facts₀ Cert.ReferenceIdeal.Facts
open scoped BigOperators

variable [Facts]

set_option hygiene false in
local macro "𝔸[" s:term ", " e:term "]" : term => `((⟨$s, $e⟩ : BufTy).Contents (Elt Ideal))

section Stages

variable (a0 : 𝔸[S100000x128, .f32]) (a1 : 𝔸[S2x1600000, .i32])
  (a3 : 𝔸[S128x128, .f32]) (a4 : 𝔸[S128, .f32]) (a5 : 𝔸[S128x128, .f32]) (a6 a7 : 𝔸[S128, .f32])
  (a8 : 𝔸[S128x128, .f32]) (a9 : 𝔸[S128, .f32]) (a10 : 𝔸[S128x128, .f32])
  (x : Fin 100000 → Fin 128 → ℝ) (hx : ∀ n j, a0 (ix2 n j) = ((x n j : ℝ) : EReal))
  (w1l : Fin 128 → Fin 128 → ℝ) (hw1l : ∀ i j, a3 (ix2 i j) = ((w1l i j : ℝ) : EReal))
  (b1l : Fin 128 → ℝ) (hb1l : ∀ j, a4 (ix1 j) = ((b1l j : ℝ) : EReal))
  (w1r : Fin 128 → Fin 128 → ℝ) (hw1r : ∀ i j, a5 (ix2 i j) = ((w1r i j : ℝ) : EReal))
  (g : Fin 128 → ℝ) (hg : ∀ j, a6 (ix1 j) = ((g j : ℝ) : EReal))
  (be : Fin 128 → ℝ) (hbe : ∀ j, a7 (ix1 j) = ((be j : ℝ) : EReal))
  (w2l : Fin 128 → Fin 128 → ℝ) (hw2l : ∀ i j, a8 (ix2 i j) = ((w2l i j : ℝ) : EReal))
  (b2l : Fin 128 → ℝ) (hb2l : ∀ j, a9 (ix1 j) = ((b2l j : ℝ) : EReal))
  (w2r : Fin 128 → Fin 128 → ℝ) (hw2r : ∀ i j, a10 (ix2 i j) = ((w2r i j : ℝ) : EReal))

include hx hw1l hb1l hw1r in

theorem h1pre_coe (n : Fin 100000) (j : Fin 128) :
    RefTerm.h1pre (F := Ideal) a0 a1 a3 a4 a5 (ix2 n j)
      = ((GraphSpec.conv (GraphBridge.gi a1) (GraphBridge.hit a1) x w1l b1l w1r n j : ℝ) : EReal) :=
  sage_coe a0 a1 x hx a3 a4 a5 w1l b1l w1r hw1l hb1l hw1r n j

include hx hw1l hb1l hw1r hg hbe in

theorem h1_coe (n : Fin 100000) (j : Fin 128) :
    RefTerm.h1 (F := Ideal) a0 a1 a3 a4 a5 a6 a7 (ix2 n j)
      = ((GraphSpec.bnrelu ((100000 : ℕ) : ℝ) GraphBridge.epsR
          (GraphSpec.conv (GraphBridge.gi a1) (GraphBridge.hit a1) x w1l b1l w1r) g be n j : ℝ) : EReal) :=
  bnrelu_coe (RefTerm.h1pre (F := Ideal) a0 a1 a3 a4 a5)
    (GraphSpec.conv (GraphBridge.gi a1) (GraphBridge.hit a1) x w1l b1l w1r)
    (h1pre_coe a0 a1 a3 a4 a5 x hx w1l hw1l b1l hb1l w1r hw1r) a6 a7 g be hg hbe n j

include hx hw1l hb1l hw1r hg hbe hw2l hb2l hw2r in

theorem out2_coe (n : Fin 100000) (d : Fin 128) :
    RefTerm.out2 (F := Ideal) a0 a1 a3 a4 a5 a6 a7 a8 a9 a10 (ix2 n d)
      = ((GraphSpec.conv (GraphBridge.gi a1) (GraphBridge.hit a1)
          (GraphSpec.bnrelu ((100000 : ℕ) : ℝ) GraphBridge.epsR
            (GraphSpec.conv (GraphBridge.gi a1) (GraphBridge.hit a1) x w1l b1l w1r) g be) w2l b2l w2r n d : ℝ) : EReal) :=
  sage_coe (RefTerm.h1 (F := Ideal) a0 a1 a3 a4 a5 a6 a7) a1
    (GraphSpec.bnrelu ((100000 : ℕ) : ℝ) GraphBridge.epsR
      (GraphSpec.conv (GraphBridge.gi a1) (GraphBridge.hit a1) x w1l b1l w1r) g be)
    (h1_coe a0 a1 a3 a4 a5 a6 a7 x hx w1l hw1l b1l hb1l w1r hw1r g hg be hbe)
    a8 a9 a10 w2l b2l w2r hw2l hb2l hw2r n d

end Stages

theorem ref_value (a0 : 𝔸[S100000x128, .f32]) (a1 : 𝔸[S2x1600000, .i32]) (a2 : 𝔸[S100000, .i32])
    (a3 : 𝔸[S128x128, .f32]) (a4 : 𝔸[S128, .f32]) (a5 : 𝔸[S128x128, .f32]) (a6 a7 : 𝔸[S128, .f32])
    (a8 : 𝔸[S128x128, .f32]) (a9 : 𝔸[S128, .f32]) (a10 : 𝔸[S128x128, .f32]) (a11 : 𝔸[S64x128, .f32])
    (a12 : 𝔸[S64, .f32])
    (x : Fin 100000 → Fin 128 → ℝ) (hx : ∀ n j, a0 (ix2 n j) = ((x n j : ℝ) : EReal))
    (w1l : Fin 128 → Fin 128 → ℝ) (hw1l : ∀ i j, a3 (ix2 i j) = ((w1l i j : ℝ) : EReal))
    (b1l : Fin 128 → ℝ) (hb1l : ∀ j, a4 (ix1 j) = ((b1l j : ℝ) : EReal))
    (w1r : Fin 128 → Fin 128 → ℝ) (hw1r : ∀ i j, a5 (ix2 i j) = ((w1r i j : ℝ) : EReal))
    (g : Fin 128 → ℝ) (hg : ∀ j, a6 (ix1 j) = ((g j : ℝ) : EReal))
    (be : Fin 128 → ℝ) (hbe : ∀ j, a7 (ix1 j) = ((be j : ℝ) : EReal))
    (w2l : Fin 128 → Fin 128 → ℝ) (hw2l : ∀ i j, a8 (ix2 i j) = ((w2l i j : ℝ) : EReal))
    (b2l : Fin 128 → ℝ) (hb2l : ∀ j, a9 (ix1 j) = ((b2l j : ℝ) : EReal))
    (w2r : Fin 128 → Fin 128 → ℝ) (hw2r : ∀ i j, a10 (ix2 i j) = ((w2r i j : ℝ) : EReal))
    (fw : Fin 64 → Fin 128 → ℝ) (hfw : ∀ o d, a11 (ix2 o d) = ((fw o d : ℝ) : EReal))
    (fb : Fin 64 → ℝ) (hfb : ∀ o, a12 (ix1 o) = ((fb o : ℝ) : EReal)) (k o : Fin 64) :
    RefTerm.out (F := Ideal) a0 a1 a2 a3 a4 a5 a6 a7 a8 a9 a10 a11 a12 (ix2 k o)
      = ((GraphSpec.net (GraphBridge.gi a1) (GraphBridge.hit a1) (GraphBridge.bhit a2) ((100000 : ℕ) : ℝ)
          GraphBridge.epsR x w1l b1l w1r g be w2l b2l w2r fw fb k o : ℝ) : EReal) :=
  head_value a2 a11 a12 (RefTerm.out2 (F := Ideal) a0 a1 a3 a4 a5 a6 a7 a8 a9 a10)
    (GraphSpec.conv (GraphBridge.gi a1) (GraphBridge.hit a1)
      (GraphSpec.bnrelu ((100000 : ℕ) : ℝ) GraphBridge.epsR
        (GraphSpec.conv (GraphBridge.gi a1) (GraphBridge.hit a1) x w1l b1l w1r) g be) w2l b2l w2r)
    (out2_coe a0 a1 a3 a4 a5 a6 a7 a8 a9 a10 x hx w1l hw1l b1l hb1l w1r hw1r g hg be hbe w2l hw2l b2l hb2l w2r hw2r)
    fw hfw fb hfb k o

end Cert.ReferenceIdeal.RefVal

end
-- ==== Proof.KValHost.lean ====
import proofs.«415688_j20925080666769_1_alg».proof.Proof.KChain
import proofs.«415688_j20925080666769_1_alg».proof.Proof.Bridge
import Idealize.ShloMosaic.Lib.ValueLayout
import Idealize.ShloMosaic.Lib.IdealHost

noncomputable section

namespace Cert.KernelIdeal.Hand

open Idealize.ShloMosaic Idealize.ShloMosaic.ValueIdx Idealize.SL.Sem
open Cert.KernelIdeal.Gen
open scoped BigOperators

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem bcastCol_apply {α : Type} (x : S1600000.Idx → α) (e : Fin 1600000) (u : Fin 1) :
    broadcastInDim S1600000x1 ![0] bcast_S1600000_S1600000x1_0 x (ix2 e u) = x (ix1 e) :=
  broadcastInDim_apply _ _ x _ (ix1 e) (fun a => match a with | ⟨0, _⟩ => rfl)

variable (a1 : (⟨S2x1600000, .i32⟩ : BufTy).Contents (Elt Ideal))

theorem srcVec_apply (e : Fin 1600000) : KTerm.srcVec a1 (ix1 e) = a1 (ix2 (0 : Fin 2) e) := by
  unfold KTerm.srcVec
  refine (shapeCast_1a_a_apply _ _ e).trans ?_
  exact slice2_axis0_apply 0 a1 _ (0 : Fin 1) e (0 : Fin 2) rfl

theorem dstVec_apply (e : Fin 1600000) : KTerm.dstVec a1 (ix1 e) = a1 (ix2 (1 : Fin 2) e) := by
  unfold KTerm.dstVec
  refine (shapeCast_1a_a_apply _ _ e).trans ?_
  exact slice2_axis0_apply 1 a1 _ (0 : Fin 1) e (1 : Fin 2) rfl

theorem dstCol_apply (e : Fin 1600000) (u : Fin 1) : KTerm.dstCol a1 (ix2 e u) = a1 (ix2 (1 : Fin 2) e) := by
  unfold KTerm.dstCol
  rw [bcastCol_apply, dstVec_apply]

theorem srcCol_apply (e : Fin 1600000) (u : Fin 1) : KTerm.srcCol a1 (ix2 e u) = GraphBridge.srcWord a1 e := by
  unfold KTerm.srcCol
  rw [bcastCol_apply]
  show Scalar.select (IntOp.cmpi .slt (KTerm.srcVec a1 (ix1 e)) 0#32) (IntOp.addi (KTerm.srcVec a1 (ix1 e)) 100000#32)
    (KTerm.srcVec a1 (ix1 e)) = _
  rw [srcVec_apply]
  unfold GraphBridge.srcWord Scalar.select IntOp.cmpi IntOp.addi
  cases (a1 (ix2 (0 : Fin 2) e)).slt 0#32 <;> simp

theorem tr_apply (w : (⟨S128x128, .f32⟩ : BufTy).Contents (Elt Ideal)) (k j : Fin 128) :
    KTerm.tr w (ix2 k j) = w (ix2 j k) :=
  transpose_ix2_apply w _ k j

end Cert.KernelIdeal.Hand

end
-- ==== Proof.KValDeg.lean ====
import proofs.«415688_j20925080666769_1_alg».proof.Proof.KValHost
import proofs.«415688_j20925080666769_1_alg».proof.Proof.KValCount

noncomputable section

namespace Cert.KernelIdeal.Hand

open Idealize.ShloMosaic Idealize.ShloMosaic.ValueIdx Idealize.SL.Sem
open Cert.KernelIdeal.Gen
open scoped BigOperators

namespace KVal

theorem coe_max' (a b : ℝ) : max (a : EReal) (b : EReal) = ((max a b : ℝ) : EReal) :=
  (Monotone.map_max EReal.coe_strictMono.monotone).symm

variable (a1 : (⟨S2x1600000, .i32⟩ : BufTy).Contents (Elt Ideal))

theorem deg_eq : KTerm.deg a1
    = Ideal.hostScatterAdd (EdgeCount.countDims 100000 1600000 scatter_S100000_S1600000x1_S1600000_n_0_0_1_wf)
      (broadcastInDim S100000 ![] bcast_S_S100000 (constant (F := Ideal) S_ .f32 0x00000000#32) : (⟨S100000, .f32⟩ : BufTy).Contents (Elt Ideal))
      (KTerm.dstCol a1)
      (broadcastInDim S1600000 ![] bcast_S_S1600000 (constant (F := Ideal) S_ .f32 0x3F800000#32) : (⟨S1600000, .f32⟩ : BufTy).Contents (Elt Ideal)) :=
  rfl

theorem deg_apply (n : Fin 100000) :
    KTerm.deg a1 (ix1 n) = ((GraphSpec.deg (GraphBridge.hit a1) n : ℝ) : EReal) := by
  rw [deg_eq]
  refine (EdgeCount.count_apply scatter_S100000_S1600000x1_S1600000_n_0_0_1_wf (KTerm.dstCol a1) _ _ n).trans ?_
  simp only [dstCol_apply]
  show Ideal.ofBits .f32 0x00000000#32
    + ∑ e ∈ Finset.univ.filter (fun e : Fin 1600000 => (a1 (ix2 (1 : Fin 2) e)).toInt = (n.val : Int)),
      Ideal.ofBits .f32 0x3F800000#32 = _
  rw [Ideal.ofBits_zero_f32, zero_add, GraphBridge.one_coe, Finset.sum_filter]
  unfold GraphSpec.deg
  rw [GraphSpec.coe_sum]
  refine Finset.sum_congr rfl fun e _ => ?_
  by_cases h : (a1 (ix2 (1 : Fin 2) e)).toInt = (n.val : Int)
  · have h' : GraphBridge.hit a1 e n := h
    rw [if_pos h, if_pos h']
  · have h' : ¬ GraphBridge.hit a1 e n := h
    rw [if_neg h, if_neg h', EReal.coe_zero]

theorem degInv_apply (n : Fin 100000) :
    KTerm.degInv a1 (ix2 n (0 : Fin 1)) = ((1 / max (GraphSpec.deg (GraphBridge.hit a1) n) 1 : ℝ) : EReal) := by
  unfold KTerm.degInv KTerm.dmax
  refine (shapeCast_a_a1_apply _ _ n 0).trans ?_
  rw [hostDivf_apply, maximumf_apply, broadcastInDim_scalar_apply, constant_apply, deg_apply, GraphBridge.one_coe,
    coe_max', Ideal.div_coe (ne_of_gt (lt_of_lt_of_le one_pos (le_max_right _ _))), ← EReal.coe_mul, one_mul]

theorem agg_eq (X : (⟨S100000x128, .f32⟩ : BufTy).Contents (Elt Ideal)) : KTerm.agg X a1
    = Ideal.hostScatterAdd
      (EdgeAgg.accumDims 100000 128 1600000 scatter_S100000x128_S1600000x1_S1600000x128_1_0_0_1_wf)
      (broadcastInDim S100000x128 ![] bcast_S_S100000x128 (constant (F := Ideal) S_ .f32 0x00000000#32) : (⟨S100000x128, .f32⟩ : BufTy).Contents (Elt Ideal))
      (KTerm.dstCol a1)
      (Host.gather
        (EdgeAgg.lookupDims 100000 128 1600000 gather_S100000x128_S1600000x1_S1600000x128_1_0_n_n_0_1_1128_wf)
        X (KTerm.srcCol a1)) :=
  rfl

theorem agg_apply (X : (⟨S100000x128, .f32⟩ : BufTy).Contents (Elt Ideal)) (n : Fin 100000) (q : Fin 128) :
    KTerm.agg X a1 (ix2 n q)
      = ∑ e : Fin 1600000, if GraphBridge.hit a1 e n then X (ix2 (GraphBridge.gi a1 e) q) else 0 := by
  rw [agg_eq]
  refine (EdgeAgg.accum_apply scatter_S100000x128_S1600000x1_S1600000x128_1_0_0_1_wf (KTerm.dstCol a1) _ _ n q).trans ?_
  simp only [dstCol_apply]
  show Ideal.ofBits .f32 0x00000000#32
    + ∑ e ∈ Finset.univ.filter (fun e : Fin 1600000 => (a1 (ix2 (1 : Fin 2) e)).toInt = (n.val : Int)),
      Host.gather
        (EdgeAgg.lookupDims 100000 128 1600000 gather_S100000x128_S1600000x1_S1600000x128_1_0_n_n_0_1_1128_wf)
        X (KTerm.srcCol a1) (ix2 e q) = _
  rw [Ideal.ofBits_zero_f32, zero_add, Finset.sum_filter]
  refine Finset.sum_congr rfl fun e _ => ?_
  have hl : Host.gather
        (EdgeAgg.lookupDims 100000 128 1600000 gather_S100000x128_S1600000x1_S1600000x128_1_0_n_n_0_1_1128_wf)
        X (KTerm.srcCol a1) (ix2 e q) = X (ix2 (GraphBridge.gi a1 e) q) := by
    refine (EdgeAgg.lookup_apply (by decide : 0 < 100000) _ X (KTerm.srcCol a1) e q).trans ?_
    rw [srcCol_apply]
    rfl
  by_cases h : (a1 (ix2 (1 : Fin 2) e)).toInt = (n.val : Int)
  · have h' : GraphBridge.hit a1 e n := h
    rw [if_pos h, if_pos h', hl]
  · have h' : ¬ GraphBridge.hit a1 e n := h
    rw [if_neg h, if_neg h']

theorem agg_coe (X : (⟨S100000x128, .f32⟩ : BufTy).Contents (Elt Ideal)) (x : Fin 100000 → Fin 128 → ℝ)
    (hX : ∀ n j, X (ix2 n j) = ((x n j : ℝ) : EReal)) (n : Fin 100000) (q : Fin 128) :
    KTerm.agg X a1 (ix2 n q) = ((GraphSpec.agg (GraphBridge.gi a1) (GraphBridge.hit a1) x n q : ℝ) : EReal) := by
  rw [agg_apply]
  unfold GraphSpec.agg
  rw [GraphSpec.coe_sum]
  refine Finset.sum_congr rfl fun e _ => ?_
  by_cases h : GraphBridge.hit a1 e n
  · rw [if_pos h, if_pos h, hX]
  · rw [if_neg h, if_neg h, EReal.coe_zero]

end KVal

end Cert.KernelIdeal.Hand

end
-- ==== Proof.KValConv.lean ====
import proofs.«415688_j20925080666769_1_alg».proof.Proof.ValSpec
import proofs.«415688_j20925080666769_1_alg».proof.Proof.Spec

noncomputable section

namespace Cert.KernelIdeal.Hand

open Idealize.ShloMosaic Idealize.ShloMosaic.ValueIdx
open scoped BigOperators

theorem G0_coe (agg : S100000x128.Idx → EReal) (dinv : S100000x1.Idx → EReal) (x : S100000x128.Idx → EReal)
    (wlt : S128x128.Idx → EReal) (b : S128.Idx → EReal) (wrt : S128x128.Idx → EReal)
    (A : Fin 100000 → Fin 128 → ℝ) (dg : Fin 100000 → ℝ) (X : Fin 100000 → Fin 128 → ℝ)
    (wl : Fin 128 → Fin 128 → ℝ) (bb : Fin 128 → ℝ) (wr : Fin 128 → Fin 128 → ℝ)
    (hagg : ∀ n k, agg (ix2 n k) = ((A n k : ℝ) : EReal))
    (hd : ∀ n, dinv (ix2 n (0 : Fin 1)) = ((1 / max (dg n) 1 : ℝ) : EReal))
    (hx : ∀ n k, x (ix2 n k) = ((X n k : ℝ) : EReal))
    (hwl : ∀ k j, wlt (ix2 k j) = ((wl j k : ℝ) : EReal))
    (hb : ∀ j, b (ix1 j) = ((bb j : ℝ) : EReal))
    (hwr : ∀ k j, wrt (ix2 k j) = ((wr j k : ℝ) : EReal)) (n : Fin 100000) (j : Fin 128) :
    G0 agg dinv x wlt b wrt n j
      = (((∑ k : Fin 128, (A n k / max (dg n) 1) * wl j k) + bb j + ∑ k : Fin 128, X n k * wr j k : ℝ) : EReal) := by
  unfold G0
  simp only [hagg, hd, hx, hwl, hb, hwr]
  rw [EReal.coe_add, EReal.coe_add, GraphSpec.coe_sum, GraphSpec.coe_sum]
  have e1 : ∀ k : Fin 128, ((A n k : ℝ) : EReal) * ((1 / max (dg n) 1 : ℝ) : EReal) * ((wl j k : ℝ) : EReal)
      = ((A n k / max (dg n) 1 * wl j k : ℝ) : EReal) := fun k => by
    rw [← EReal.coe_mul, ← EReal.coe_mul, mul_one_div]
  have e2 : ∀ k : Fin 128, ((X n k : ℝ) : EReal) * ((wr j k : ℝ) : EReal) = ((X n k * wr j k : ℝ) : EReal) :=
    fun k => (EReal.coe_mul _ _).symm
  simp only [e1, e2]

end Cert.KernelIdeal.Hand

end
-- ==== Proof.KValNorm.lean ====
import proofs.«415688_j20925080666769_1_alg».proof.Proof.KChain
import proofs.«415688_j20925080666769_1_alg».proof.Proof.Bridge
import Idealize.ShloMosaic.Lib.ValueLayout
import Idealize.ShloMosaic.Lib.IdealHost

noncomputable section

namespace Cert.KernelIdeal.Hand

open Idealize.ShloMosaic Idealize.ShloMosaic.ValueIdx Idealize.SL.Sem
open Cert.KernelIdeal.Gen
open scoped BigOperators

theorem nn_ne : ((100000 : ℕ) : ℝ) ≠ 0 := by norm_num

variable (st : (⟨S2x128, .f32⟩ : BufTy).Contents (Elt Ideal))

theorem statRow0_apply (j : Fin 128) :
    (shapeCast S128 (extractStridedSlice S1x128 ![0, 0] st slices_S2x128_S1x128_0_0 : (⟨S1x128, .f32⟩ : BufTy).Contents (Elt Ideal))
      shapeCasts_S1x128_S128 : (⟨S128, .f32⟩ : BufTy).Contents (Elt Ideal)) (ix1 j) = st (ix2 (0 : Fin 2) j) := by
  refine (shapeCast_1a_a_apply _ _ j).trans ?_
  exact slice2_axis0_apply 0 st _ (0 : Fin 1) j (0 : Fin 2) rfl

theorem statRow1_apply (j : Fin 128) :
    (shapeCast S128 (extractStridedSlice S1x128 ![1, 0] st slices_S2x128_S1x128_1_0 : (⟨S1x128, .f32⟩ : BufTy).Contents (Elt Ideal))
      shapeCasts_S1x128_S128 : (⟨S128, .f32⟩ : BufTy).Contents (Elt Ideal)) (ix1 j) = st (ix2 (1 : Fin 2) j) := by
  refine (shapeCast_1a_a_apply _ _ j).trans ?_
  exact slice2_axis0_apply 1 st _ (0 : Fin 1) j (1 : Fin 2) rfl

variable (S Q : Fin 128 → ℝ) (hS : ∀ j, st (ix2 (0 : Fin 2) j) = ((S j : ℝ) : EReal))
  (hQ : ∀ j, st (ix2 (1 : Fin 2) j) = ((Q j : ℝ) : EReal))

include hS in

theorem mean_coe (j : Fin 128) : KTerm.mean st (ix1 j) = ((S j / ((100000 : ℕ) : ℝ) : ℝ) : EReal) := by
  unfold KTerm.mean
  rw [hostDivf_apply, statRow0_apply, broadcastInDim_scalar_apply, constant_apply, GraphBridge.nn_coe, hS,
    Ideal.div_coe nn_ne, ← EReal.coe_mul, mul_one_div]

include hS hQ in

theorem var_coe (j : Fin 128) :
    KTerm.var st (ix1 j)
      = ((Q j / ((100000 : ℕ) : ℝ) - S j / ((100000 : ℕ) : ℝ) * (S j / ((100000 : ℕ) : ℝ)) : ℝ) : EReal) := by
  unfold KTerm.var
  rw [subf_apply, mulf_apply, mean_coe st S hS, hostDivf_apply, statRow1_apply, broadcastInDim_scalar_apply,
    constant_apply, GraphBridge.nn_coe, hQ, Ideal.div_coe nn_ne, ← EReal.coe_mul, ← EReal.coe_mul, ← EReal.coe_sub,
    mul_one_div]

variable (a6 a7 : (⟨S128, .f32⟩ : BufTy).Contents (Elt Ideal)) (g be : Fin 128 → ℝ)
  (hg : ∀ j, a6 (ix1 j) = ((g j : ℝ) : EReal)) (hbe : ∀ j, a7 (ix1 j) = ((be j : ℝ) : EReal))

include hS hQ hg in

theorem scale_coe (j : Fin 128)
    (hpos : 0 < Q j / ((100000 : ℕ) : ℝ) - S j / ((100000 : ℕ) : ℝ) * (S j / ((100000 : ℕ) : ℝ)) + GraphBridge.epsR) :
    KTerm.scale st a6 (ix1 j)
      = (((Real.sqrt (Q j / ((100000 : ℕ) : ℝ) - S j / ((100000 : ℕ) : ℝ) * (S j / ((100000 : ℕ) : ℝ))
            + GraphBridge.epsR))⁻¹ * g j : ℝ) : EReal) := by
  unfold KTerm.scale
  rw [mulf_apply]
  show Ideal.rsqrt (addf (F := Ideal) (φ := .f32) (KTerm.var st) _ (ix1 j)) * _ = _
  rw [addf_apply, var_coe st S Q hS hQ, broadcastInDim_scalar_apply, constant_apply, GraphBridge.eps_coe,
    ← EReal.coe_add, Ideal.rsqrt_coe, if_neg (not_lt.mpr hpos.le), if_neg hpos.ne', hg, ← EReal.coe_mul]

include hS hQ hg hbe in

theorem shift_coe (j : Fin 128)
    (hpos : 0 < Q j / ((100000 : ℕ) : ℝ) - S j / ((100000 : ℕ) : ℝ) * (S j / ((100000 : ℕ) : ℝ)) + GraphBridge.epsR) :
    KTerm.shift st a6 a7 (ix1 j)
      = ((be j - S j / ((100000 : ℕ) : ℝ)
          * ((Real.sqrt (Q j / ((100000 : ℕ) : ℝ) - S j / ((100000 : ℕ) : ℝ) * (S j / ((100000 : ℕ) : ℝ))
            + GraphBridge.epsR))⁻¹ * g j) : ℝ) : EReal) := by
  unfold KTerm.shift
  rw [subf_apply, mulf_apply, mean_coe st S hS, scale_coe st S Q hS hQ a6 g hg j hpos, hbe, ← EReal.coe_mul,
    ← EReal.coe_sub]

end Cert.KernelIdeal.Hand

end
-- ==== Proof.KValL1.lean ====
import proofs.«415688_j20925080666769_1_alg».proof.Proof.KValDeg
import proofs.«415688_j20925080666769_1_alg».proof.Proof.KValConv
import proofs.«415688_j20925080666769_1_alg».proof.Proof.KValNorm

noncomputable section

namespace Cert.KernelIdeal.Hand

open Idealize.ShloMosaic Idealize.ShloMosaic.ValueIdx Idealize.SL.Sem
open Cert.KernelIdeal.Gen
open scoped BigOperators

namespace KVal

variable (a1 : (⟨S2x1600000, .i32⟩ : BufTy).Contents (Elt Ideal))

theorem layer_coe (X : (⟨S100000x128, .f32⟩ : BufTy).Contents (Elt Ideal))
    (wl' : (⟨S128x128, .f32⟩ : BufTy).Contents (Elt Ideal)) (b' : (⟨S128, .f32⟩ : BufTy).Contents (Elt Ideal))
    (wr' : (⟨S128x128, .f32⟩ : BufTy).Contents (Elt Ideal))
    (x : Fin 100000 → Fin 128 → ℝ) (wl : Fin 128 → Fin 128 → ℝ) (bb : Fin 128 → ℝ) (wr : Fin 128 → Fin 128 → ℝ)
    (hX : ∀ n j, X (ix2 n j) = ((x n j : ℝ) : EReal)) (hwl : ∀ i j, wl' (ix2 i j) = ((wl i j : ℝ) : EReal))
    (hb : ∀ j, b' (ix1 j) = ((bb j : ℝ) : EReal)) (hwr : ∀ i j, wr' (ix2 i j) = ((wr i j : ℝ) : EReal))
    (n : Fin 100000) (j : Fin 128) :
    G0 (KTerm.agg X a1) (KTerm.degInv a1) X (KTerm.tr wl') b' (KTerm.tr wr') n j
      = ((GraphSpec.conv (GraphBridge.gi a1) (GraphBridge.hit a1) x wl bb wr n j : ℝ) : EReal) :=
  G0_coe _ _ _ _ _ _ (GraphSpec.agg (GraphBridge.gi a1) (GraphBridge.hit a1) x) (GraphSpec.deg (GraphBridge.hit a1)) x wl bb wr
    (agg_coe a1 X x hX) (degInv_apply a1) hX (fun k j => by rw [tr_apply, hwl]) hb (fun k j => by rw [tr_apply, hwr]) n j

theorem G1_coe (h : S100000x128.Idx → EReal) (H : Fin 100000 → Fin 128 → ℝ)
    (hh : ∀ n j, h (ix2 n j) = ((H n j : ℝ) : EReal)) (j : Fin 128) :
    G1 h (0 : Fin 2) j = ((∑ n : Fin 100000, H n j : ℝ) : EReal)
      ∧ G1 h (1 : Fin 2) j = ((∑ n : Fin 100000, H n j * H n j : ℝ) : EReal) := by
  constructor
  · unfold G1
    rw [if_pos (show (0 : Fin 2).val = 0 from rfl), GraphSpec.coe_sum]
    exact Finset.sum_congr rfl fun n _ => hh n j
  · unfold G1
    rw [if_neg (show ¬ (1 : Fin 2).val = 0 from by decide), GraphSpec.coe_sum]
    refine Finset.sum_congr rfl fun n _ => ?_
    rw [hh, ← EReal.coe_mul]

variable (a0 : (⟨S100000x128, .f32⟩ : BufTy).Contents (Elt Ideal))
  (a3 : (⟨S128x128, .f32⟩ : BufTy).Contents (Elt Ideal)) (a4 : (⟨S128, .f32⟩ : BufTy).Contents (Elt Ideal))
  (a5 : (⟨S128x128, .f32⟩ : BufTy).Contents (Elt Ideal)) (a6 a7 : (⟨S128, .f32⟩ : BufTy).Contents (Elt Ideal))
  (x : Fin 100000 → Fin 128 → ℝ) (hx : ∀ n j, a0 (ix2 n j) = ((x n j : ℝ) : EReal))
  (w1l : Fin 128 → Fin 128 → ℝ) (hw1l : ∀ i j, a3 (ix2 i j) = ((w1l i j : ℝ) : EReal))
  (b1l : Fin 128 → ℝ) (hb1l : ∀ j, a4 (ix1 j) = ((b1l j : ℝ) : EReal))
  (w1r : Fin 128 → Fin 128 → ℝ) (hw1r : ∀ i j, a5 (ix2 i j) = ((w1r i j : ℝ) : EReal))
  (g : Fin 128 → ℝ) (hg : ∀ j, a6 (ix1 j) = ((g j : ℝ) : EReal))
  (be : Fin 128 → ℝ) (hbe : ∀ j, a7 (ix1 j) = ((be j : ℝ) : EReal))

include hx hw1l hb1l hw1r in

theorem kO2_apply (n : Fin 100000) (j : Fin 128) :
    kO2 a0 a1 a3 a4 a5 (ix2 n j)
      = ((GraphSpec.conv (GraphBridge.gi a1) (GraphBridge.hit a1) x w1l b1l w1r n j : ℝ) : EReal) :=
  layer_coe a1 a0 a3 a4 a5 x w1l b1l w1r hx hw1l hb1l hw1r n j

include hx hw1l hb1l hw1r in

theorem kO3_apply (j : Fin 128) :
    kO3 a0 a1 a3 a4 a5 (ix2 (0 : Fin 2) j)
        = ((∑ n : Fin 100000, GraphSpec.conv (GraphBridge.gi a1) (GraphBridge.hit a1) x w1l b1l w1r n j : ℝ) : EReal)
      ∧ kO3 a0 a1 a3 a4 a5 (ix2 (1 : Fin 2) j)
        = ((∑ n : Fin 100000, GraphSpec.conv (GraphBridge.gi a1) (GraphBridge.hit a1) x w1l b1l w1r n j
            * GraphSpec.conv (GraphBridge.gi a1) (GraphBridge.hit a1) x w1l b1l w1r n j : ℝ) : EReal) :=
  G1_coe (kO2 a0 a1 a3 a4 a5) (GraphSpec.conv (GraphBridge.gi a1) (GraphBridge.hit a1) x w1l b1l w1r)
    (kO2_apply a1 a0 a3 a4 a5 x hx w1l hw1l b1l hb1l w1r hw1r) j

include hx hw1l hb1l hw1r hg hbe in

theorem kO5_apply (n : Fin 100000) (j : Fin 128) :
    kO5 a0 a1 a3 a4 a5 a6 a7 (ix2 n j)
      = ((GraphSpec.bnrelu ((100000 : ℕ) : ℝ) GraphBridge.epsR
          (GraphSpec.conv (GraphBridge.gi a1) (GraphBridge.hit a1) x w1l b1l w1r) g be n j : ℝ) : EReal) := by
  have hS : ∀ j, kO3 a0 a1 a3 a4 a5 (ix2 (0 : Fin 2) j)
      = (((fun j => ∑ n : Fin 100000, GraphSpec.conv (GraphBridge.gi a1) (GraphBridge.hit a1) x w1l b1l w1r n j) j : ℝ) : EReal) :=
    fun j => (kO3_apply a1 a0 a3 a4 a5 x hx w1l hw1l b1l hb1l w1r hw1r j).1
  have hQ : ∀ j, kO3 a0 a1 a3 a4 a5 (ix2 (1 : Fin 2) j)
      = (((fun j => ∑ n : Fin 100000, GraphSpec.conv (GraphBridge.gi a1) (GraphBridge.hit a1) x w1l b1l w1r n j
            * GraphSpec.conv (GraphBridge.gi a1) (GraphBridge.hit a1) x w1l b1l w1r n j) j : ℝ) : EReal) :=
    fun j => (kO3_apply a1 a0 a3 a4 a5 x hx w1l hw1l b1l hb1l w1r hw1r j).2
  have hpos : 0 < (∑ n : Fin 100000, GraphSpec.conv (GraphBridge.gi a1) (GraphBridge.hit a1) x w1l b1l w1r n j
        * GraphSpec.conv (GraphBridge.gi a1) (GraphBridge.hit a1) x w1l b1l w1r n j) / ((100000 : ℕ) : ℝ)
      - (∑ n : Fin 100000, GraphSpec.conv (GraphBridge.gi a1) (GraphBridge.hit a1) x w1l b1l w1r n j) / ((100000 : ℕ) : ℝ)
        * ((∑ n : Fin 100000, GraphSpec.conv (GraphBridge.gi a1) (GraphBridge.hit a1) x w1l b1l w1r n j) / ((100000 : ℕ) : ℝ))
      + GraphBridge.epsR := by
    have h2 := GraphSpec.var_nonneg ((100000 : ℕ) : ℝ) (Nat.cast_nonneg _)
      (GraphSpec.conv (GraphBridge.gi a1) (GraphBridge.hit a1) x w1l b1l w1r) j
    rw [GraphSpec.var_eq _ j nn_ne] at h2
    unfold GraphSpec.mean at h2
    linarith [GraphBridge.eps_pos]
  show G2 (kO2 a0 a1 a3 a4 a5) (KTerm.scale (kO3 a0 a1 a3 a4 a5) a6) (KTerm.shift (kO3 a0 a1 a3 a4 a5) a6 a7) n j = _
  unfold G2
  rw [kO2_apply a1 a0 a3 a4 a5 x hx w1l hw1l b1l hb1l w1r hw1r,
    scale_coe (kO3 a0 a1 a3 a4 a5) _ _ hS hQ a6 g hg j hpos,
    shift_coe (kO3 a0 a1 a3 a4 a5) _ _ hS hQ a6 a7 g be hg hbe j hpos,
    ← EReal.coe_mul, ← EReal.coe_add, ← EReal.coe_zero, coe_max']
  exact congrArg Real.toEReal
    (GraphSpec.bnrelu_folded GraphBridge.epsR (GraphSpec.conv (GraphBridge.gi a1) (GraphBridge.hit a1) x w1l b1l w1r)
      g be n j nn_ne)

end KVal

end Cert.KernelIdeal.Hand

end
-- ==== Proof.KValHead.lean ====
import proofs.«415688_j20925080666769_1_alg».proof.Proof.KTerm
import proofs.«415688_j20925080666769_1_alg».proof.Proof.ValSpec
import proofs.«415688_j20925080666769_1_alg».proof.Proof.Spec
import proofs.«415688_j20925080666769_1_alg».proof.Proof.Bridge
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Idealize.SL.Sem
open scoped BigOperators

theorem toInt_ofNat_group : ∀ k : Fin 64, (BitVec.ofNat 32 k.val).toInt = (k.val : Int) := by decide

theorem word_eq_group_iff (w : BitVec 32) (k : Fin 64) : w = BitVec.ofNat 32 k.val ↔ w.toInt = (k.val : Int) :=
  ⟨fun e => by rw [e]; exact toInt_ofNat_group k, fun h => BitVec.eq_of_toInt_eq (by rw [h, toInt_ofNat_group k])⟩

theorem coe_max_real (a b : ℝ) : max (a : EReal) (b : EReal) = ((max a b : ℝ) : EReal) :=
  (EReal.coe_strictMono.monotone.map_max).symm

theorem batchCol_apply (a2 : (⟨S100000, .i32⟩ : BufTy).Contents (Elt Ideal)) (n : Fin 100000) :
    KTerm.batchCol a2 (ix2 n (0 : Fin 1)) = a2 (ix1 n) := by
  unfold KTerm.batchCol
  refine shapeCast_apply a2 _ (ix2 n (0 : Fin 1)) (ix1 n) ?_
  rw [Shape.rowMajor_val_one, Shape.rowMajor_val_two]
  simp

theorem trF_apply (a11 : (⟨S64x128, .f32⟩ : BufTy).Contents (Elt Ideal)) (d : Fin 128) (o : Fin 64) :
    KTerm.trF a11 (ix2 d o) = a11 (ix2 o d) := by
  unfold KTerm.trF
  exact transpose_ix2_apply a11 _ d o

theorem groupSum_eq (a2 : (⟨S100000, .i32⟩ : BufTy).Contents (Elt Ideal)) (Z : Fin 100000 → Fin 128 → EReal)
    (Y : Fin 100000 → Fin 128 → ℝ) (hY : ∀ n d, Z n d = ((Y n d : ℝ) : EReal)) (k : Fin 64) (d : Fin 128) :
    groupSum (KTerm.batchCol a2) Z k d = ((GraphSpec.pooled (GraphBridge.bhit a2) Y k d : ℝ) : EReal) := by
  unfold groupSum GraphSpec.pooled
  rw [GraphSpec.coe_sum]
  refine Finset.sum_congr rfl fun n _ => ?_
  rw [batchCol_apply]
  by_cases hb : GraphBridge.bhit a2 n k
  · rw [if_pos hb, if_pos ((word_eq_group_iff _ k).mpr hb), hY]
  · rw [if_neg hb, if_neg (fun e => hb ((word_eq_group_iff _ k).mp e)), EReal.coe_zero]

theorem groupCount_eq (a2 : (⟨S100000, .i32⟩ : BufTy).Contents (Elt Ideal)) (k : Fin 64) :
    groupCount (KTerm.batchCol a2) k = ((GraphSpec.cnt (GraphBridge.bhit a2) k : ℝ) : EReal) := by
  unfold groupCount GraphSpec.cnt
  rw [GraphSpec.coe_sum]
  refine Finset.sum_congr rfl fun n _ => ?_
  rw [batchCol_apply]
  by_cases hb : GraphBridge.bhit a2 n k
  · rw [if_pos hb, if_pos ((word_eq_group_iff _ k).mpr hb), EReal.coe_one]
  · rw [if_neg hb, if_neg (fun e => hb ((word_eq_group_iff _ k).mp e)), EReal.coe_zero]

theorem khead_value (agg : S100000x128.Idx → EReal) (dinv : S100000x1.Idx → EReal) (h : S100000x128.Idx → EReal)
    (wlt : S128x128.Idx → EReal) (b : S128.Idx → EReal) (wrt : S128x128.Idx → EReal)
    (a2 : (⟨S100000, .i32⟩ : BufTy).Contents (Elt Ideal)) (a11 : (⟨S64x128, .f32⟩ : BufTy).Contents (Elt Ideal))
    (a12 : (⟨S64, .f32⟩ : BufTy).Contents (Elt Ideal))
    (Y : Fin 100000 → Fin 128 → ℝ) (hY : ∀ n d, G0 agg dinv h wlt b wrt n d = ((Y n d : ℝ) : EReal))
    (fw : Fin 64 → Fin 128 → ℝ) (hfw : ∀ o d, a11 (ix2 o d) = ((fw o d : ℝ) : EReal))
    (fb : Fin 64 → ℝ) (hfb : ∀ o, a12 (ix1 o) = ((fb o : ℝ) : EReal)) (k o : Fin 64) :
    G3 agg dinv h (KTerm.batchCol a2) wlt b wrt (KTerm.trF a11) a12 k o
      = ((GraphSpec.head (GraphSpec.pooled (GraphBridge.bhit a2) Y) (GraphSpec.cnt (GraphBridge.bhit a2)) fw fb k o : ℝ) : EReal) := by
  have hq : max (GraphSpec.cnt (GraphBridge.bhit a2) k) 1 ≠ 0 :=
    ne_of_gt (lt_of_lt_of_le one_pos (le_max_right _ _))
  have hterm : ∀ d : Fin 128,
      Ideal.div (groupSum (KTerm.batchCol a2) (G0 agg dinv h wlt b wrt) k d)
          (max (groupCount (KTerm.batchCol a2) k) (Ideal.ofBits .f32 0x3F800000#32)) * KTerm.trF a11 (ix2 d o)
        = (((GraphSpec.pooled (GraphBridge.bhit a2) Y k d / max (GraphSpec.cnt (GraphBridge.bhit a2) k) 1) * fw o d : ℝ) : EReal) := fun d => by
    rw [groupSum_eq a2 _ Y hY k d, groupCount_eq a2 k, GraphBridge.one_coe, coe_max_real, Ideal.div_coe hq, trF_apply, hfw,
      ← EReal.coe_mul, ← EReal.coe_mul, mul_one_div]
  unfold G3 GraphSpec.head
  rw [EReal.coe_add, GraphSpec.coe_sum, hfb]
  exact congrArg (· + ((fb o : ℝ) : EReal)) (Finset.sum_congr rfl fun d _ => hterm d)

end Cert.KernelIdeal.Hand

end
-- ==== Proof.KVal.lean ====
import proofs.«415688_j20925080666769_1_alg».proof.Proof.KValL1
import proofs.«415688_j20925080666769_1_alg».proof.Proof.KValHead

noncomputable section

namespace Cert.KernelIdeal.Hand

open Idealize.ShloMosaic Idealize.ShloMosaic.ValueIdx Idealize.SL.Sem
open Cert.KernelIdeal.Gen
open scoped BigOperators

theorem kernel_value (a0 : (⟨S100000x128, .f32⟩ : BufTy).Contents (Elt Ideal)) (a1 : (⟨S2x1600000, .i32⟩ : BufTy).Contents (Elt Ideal))
    (a2 : (⟨S100000, .i32⟩ : BufTy).Contents (Elt Ideal)) (a3 : (⟨S128x128, .f32⟩ : BufTy).Contents (Elt Ideal))
    (a4 : (⟨S128, .f32⟩ : BufTy).Contents (Elt Ideal)) (a5 : (⟨S128x128, .f32⟩ : BufTy).Contents (Elt Ideal))
    (a6 a7 : (⟨S128, .f32⟩ : BufTy).Contents (Elt Ideal)) (a8 : (⟨S128x128, .f32⟩ : BufTy).Contents (Elt Ideal))
    (a9 : (⟨S128, .f32⟩ : BufTy).Contents (Elt Ideal)) (a10 : (⟨S128x128, .f32⟩ : BufTy).Contents (Elt Ideal))
    (a11 : (⟨S64x128, .f32⟩ : BufTy).Contents (Elt Ideal)) (a12 : (⟨S64, .f32⟩ : BufTy).Contents (Elt Ideal))
    (x : Fin 100000 → Fin 128 → ℝ) (hx : ∀ n j, a0 (ix2 n j) = ((x n j : ℝ) : EReal))
    (w1l : Fin 128 → Fin 128 → ℝ) (hw1l : ∀ i j, a3 (ix2 i j) = ((w1l i j : ℝ) : EReal))
    (b1l : Fin 128 → ℝ) (hb1l : ∀ j, a4 (ix1 j) = ((b1l j : ℝ) : EReal))
    (w1r : Fin 128 → Fin 128 → ℝ) (hw1r : ∀ i j, a5 (ix2 i j) = ((w1r i j : ℝ) : EReal))
    (g : Fin 128 → ℝ) (hg : ∀ j, a6 (ix1 j) = ((g j : ℝ) : EReal))
    (be : Fin 128 → ℝ) (hbe : ∀ j, a7 (ix1 j) = ((be j : ℝ) : EReal))
    (w2l : Fin 128 → Fin 128 → ℝ) (hw2l : ∀ i j, a8 (ix2 i j) = ((w2l i j : ℝ) : EReal))
    (b2l : Fin 128 → ℝ) (hb2l : ∀ j, a9 (ix1 j) = ((b2l j : ℝ) : EReal))
    (w2r : Fin 128 → Fin 128 → ℝ) (hw2r : ∀ i j, a10 (ix2 i j) = ((w2r i j : ℝ) : EReal))
    (fw : Fin 64 → Fin 128 → ℝ) (hfw : ∀ o d, a11 (ix2 o d) = ((fw o d : ℝ) : EReal))
    (fb : Fin 64 → ℝ) (hfb : ∀ o, a12 (ix1 o) = ((fb o : ℝ) : EReal)) (k o : Fin 64) :
    kO7 a0 a1 a2 a3 a4 a5 a6 a7 a8 a9 a10 a11 a12 (ix2 k o)
      = ((GraphSpec.net (GraphBridge.gi a1) (GraphBridge.hit a1) (GraphBridge.bhit a2) ((100000 : ℕ) : ℝ) GraphBridge.epsR
          x w1l b1l w1r g be w2l b2l w2r fw fb k o : ℝ) : EReal) :=
  khead_value (KTerm.agg (kO5 a0 a1 a3 a4 a5 a6 a7) a1) (KTerm.degInv a1) (kO5 a0 a1 a3 a4 a5 a6 a7) (KTerm.tr a8) a9 (KTerm.tr a10) a2 a11 a12
    (GraphSpec.conv (GraphBridge.gi a1) (GraphBridge.hit a1) (GraphSpec.bnrelu ((100000 : ℕ) : ℝ) GraphBridge.epsR (GraphSpec.conv (GraphBridge.gi a1) (GraphBridge.hit a1) x w1l b1l w1r) g be) w2l b2l w2r)
    (fun n d => KVal.layer_coe a1 (kO5 a0 a1 a3 a4 a5 a6 a7) a8 a9 a10 (GraphSpec.bnrelu ((100000 : ℕ) : ℝ) GraphBridge.epsR (GraphSpec.conv (GraphBridge.gi a1) (GraphBridge.hit a1) x w1l b1l w1r) g be) w2l b2l w2r
      (KVal.kO5_apply a1 a0 a3 a4 a5 a6 a7 x hx w1l hw1l b1l hb1l w1r hw1r g hg be hbe) hw2l hb2l hw2r n d)
    fw hfw fb hfb k o

end Cert.KernelIdeal.Hand

end
-- ==== Proof.Agree.lean ====
import proofs.«415688_j20925080666769_1_alg».proof.Defs
import proofs.«415688_j20925080666769_1_alg».proof.Proof.Finite
import proofs.«415688_j20925080666769_1_alg».proof.Proof.RefVal
import proofs.«415688_j20925080666769_1_alg».proof.Proof.KVal
import proofs.«415688_j20925080666769_1_alg».proof.Proof.Gen.ReferenceIdeal
import proofs.«415688_j20925080666769_1_alg».proof.Proof.Gen.KernelIdeal
import proofs.«415688_j20925080666769_1_alg».proof.Proof.Gen.Pre_finite_inputs

noncomputable section

namespace Cert.Proof

open Idealize.ShloMosaic Idealize.ShloMosaic.ValueIdx Idealize.SL.Sem

theorem agree_arrays (a0 : (⟨Cert.KernelIdeal.S100000x128, .f32⟩ : BufTy).Contents (Elt Ideal)) (a1 : (⟨Cert.KernelIdeal.S2x1600000, .i32⟩ : BufTy).Contents (Elt Ideal)) (a2 : (⟨Cert.KernelIdeal.S100000, .i32⟩ : BufTy).Contents (Elt Ideal)) (a3 : (⟨Cert.KernelIdeal.S128x128, .f32⟩ : BufTy).Contents (Elt Ideal)) (a4 : (⟨Cert.KernelIdeal.S128, .f32⟩ : BufTy).Contents (Elt Ideal)) (a5 : (⟨Cert.KernelIdeal.S128x128, .f32⟩ : BufTy).Contents (Elt Ideal)) (a6 : (⟨Cert.KernelIdeal.S128, .f32⟩ : BufTy).Contents (Elt Ideal)) (a7 : (⟨Cert.KernelIdeal.S128, .f32⟩ : BufTy).Contents (Elt Ideal)) (a8 : (⟨Cert.KernelIdeal.S128x128, .f32⟩ : BufTy).Contents (Elt Ideal)) (a9 : (⟨Cert.KernelIdeal.S128, .f32⟩ : BufTy).Contents (Elt Ideal)) (a10 : (⟨Cert.KernelIdeal.S128x128, .f32⟩ : BufTy).Contents (Elt Ideal)) (a11 : (⟨Cert.KernelIdeal.S64x128, .f32⟩ : BufTy).Contents (Elt Ideal)) (a12 : (⟨Cert.KernelIdeal.S64, .f32⟩ : BufTy).Contents (Elt Ideal))
    (hfin : (∀ i, ∃ r : ℝ, a0 i = ((r : ℝ) : EReal)) ∧ (∀ i, ∃ r : ℝ, a3 i = ((r : ℝ) : EReal)) ∧ (∀ i, ∃ r : ℝ, a4 i = ((r : ℝ) : EReal))
      ∧ (∀ i, ∃ r : ℝ, a5 i = ((r : ℝ) : EReal)) ∧ (∀ i, ∃ r : ℝ, a6 i = ((r : ℝ) : EReal)) ∧ (∀ i, ∃ r : ℝ, a7 i = ((r : ℝ) : EReal))
      ∧ (∀ i, ∃ r : ℝ, a8 i = ((r : ℝ) : EReal)) ∧ (∀ i, ∃ r : ℝ, a9 i = ((r : ℝ) : EReal)) ∧ (∀ i, ∃ r : ℝ, a10 i = ((r : ℝ) : EReal))
      ∧ (∀ i, ∃ r : ℝ, a11 i = ((r : ℝ) : EReal)) ∧ (∀ i, ∃ r : ℝ, a12 i = ((r : ℝ) : EReal))) :
    Cert.ReferenceIdeal.RefTerm.out a0 a1 a2 a3 a4 a5 a6 a7 a8 a9 a10 a11 a12 = Cert.KernelIdeal.Hand.kO7 a0 a1 a2 a3 a4 a5 a6 a7 a8 a9 a10 a11 a12 := by
  obtain ⟨f0, f3, f4, f5, f6, f7, f8, f9, f10, f11, f12⟩ := hfin
  choose x hx using f0
  choose w1l hw1l using f3
  choose b1l hb1l using f4
  choose w1r hw1r using f5
  choose g hg using f6
  choose be hbe using f7
  choose w2l hw2l using f8
  choose b2l hb2l using f9
  choose w2r hw2r using f10
  choose fw hfw using f11
  choose fb hfb using f12
  funext i
  rw [eq_ix2 i]
  exact (Cert.ReferenceIdeal.RefVal.ref_value a0 a1 a2 a3 a4 a5 a6 a7 a8 a9 a10 a11 a12 _ (fun n j => hx (ix2 n j))
      _ (fun p q => hw1l (ix2 p q)) _ (fun j => hb1l (ix1 j))
      _ (fun p q => hw1r (ix2 p q)) _ (fun j => hg (ix1 j))
      _ (fun j => hbe (ix1 j))
      _ (fun p q => hw2l (ix2 p q)) _ (fun j => hb2l (ix1 j))
      _ (fun p q => hw2r (ix2 p q))
      _ (fun p q => hfw (ix2 p q)) _ (fun j => hfb (ix1 j)) (i 0) (i 1)).trans
    (Cert.KernelIdeal.Hand.kernel_value a0 a1 a2 a3 a4 a5 a6 a7 a8 a9 a10 a11 a12 _ (fun n j => hx (ix2 n j))
      _ (fun p q => hw1l (ix2 p q)) _ (fun j => hb1l (ix1 j))
      _ (fun p q => hw1r (ix2 p q)) _ (fun j => hg (ix1 j))
      _ (fun j => hbe (ix1 j))
      _ (fun p q => hw2l (ix2 p q)) _ (fun j => hb2l (ix1 j))
      _ (fun p q => hw2r (ix2 p q))
      _ (fun p q => hfw (ix2 p q)) _ (fun j => hfb (ix1 j)) (i 0) (i 1)).symm

theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RefTerm.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = Cert.KernelIdeal.Hand.kO7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  obtain ⟨h0, h1, h2, h3, h4, h5, h6, h7, h8, h9, h10, h11, h12⟩ := hag
  rw [h0, h1, h2, h3, h4, h5, h6, h7, h8, h9, h10, h11, h12]
  exact agree_arrays _ _ _ _ _ _ _ _ _ _ _ _ _ (Cert.Proof.Finite.reals_of_pre m hpre c)

end Cert.Proof

end
-- ==== Proof.lean ====
import proofs.«415688_j20925080666769_1_alg».proof.Defs
import proofs.«415688_j20925080666769_1_alg».proof.Proof.Gen.Kernel
import proofs.«415688_j20925080666769_1_alg».proof.Proof.Gen.KernelIdeal
import proofs.«415688_j20925080666769_1_alg».proof.Proof.Gen.ReferenceIdeal
import proofs.«415688_j20925080666769_1_alg».proof.Proof.Gen.Pre_finite_inputs
import proofs.«415688_j20925080666769_1_alg».proof.Proof.FrameRunVal
import proofs.«415688_j20925080666769_1_alg».proof.Proof.RefRun
import proofs.«415688_j20925080666769_1_alg».proof.Proof.KAssemble
import proofs.«415688_j20925080666769_1_alg».proof.Proof.Agree

noncomputable section

namespace Cert.Proof

open Idealize.ShloMosaic Idealize.SL.Sem Cert.KernelIdeal.Hand

open Lean Elab Tactic Meta in
/-- Closes `a = b` by `Eq.refl a`. -/
elab "kernel_rfl" : tactic => do
  let g ← getMainGoal
  let some (_, a, _) := (← instantiateMVars (← g.getType)).eq? | throwError "not an equation"
  g.assign (← mkEqRefl a)

-- The two printed kernel programs are one text, so their body tables and their @main are the same terms.
theorem defs_eq : Cert.Kernel.defs (F := Bits) = Cert.KernelIdeal.defs := by kernel_rfl
theorem main_eq : Cert.Kernel.main (F := Bits) = Cert.KernelIdeal.main := by kernel_rfl

-- Hence the run of the idealized text, proved for any float instance, is also the word-level program's: drop its result conjunct.
set_option maxHeartbeats 1000000 in
theorem frame_Kernel : Cert.frame_Kernel := fun m ρ _ => by
  rw [defs_eq, main_eq]
  refine (θ_run _ _ _).mono ?_ (frameVal half0 half1 half2 half3 m ρ)
  exact fun _ h c => (h c).2

theorem frame_KernelIdeal : Cert.frame_KernelIdeal := fun m ρ _ => by
  refine (θ_run _ _ _).mono ?_ (frameVal half0 half1 half2 half3 m ρ)
  exact fun _ h c => (h c).2

theorem frame_ReferenceIdeal : Cert.frame_ReferenceIdeal := fun m ρ _ =>
  (θ_run Cert.ReferenceIdeal.defs _ _).mono (fun _ h c => (h c).2) (Cert.ReferenceIdeal.RefRun.run m ρ)

-- Both results are one term of the arguments: the kernels' outputs composed through the host operations, and the reference's operations composed; the two agree at finite inputs.
theorem algebraic : Cert.algebraic_KernelIdeal_ReferenceIdeal := fun m g m' g' hpre hag =>
  ⟨fun c => o7 half0 half1 half2 half3 m c, frameVal half0 half1 half2 half3 m g,
    (θ_run Cert.ReferenceIdeal.defs _ _).mono
      (fun r h c => ⟨(h c).1.trans ((values_agree m m' hpre c (hag c)).trans (o7_eq m c).symm), (h c).2⟩)
      (Cert.ReferenceIdeal.RefRun.run m' g')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
